-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  IdealRules.truncf_extf.Statement Cert.KernelIdeal.S2000x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v41_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v41_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_v161) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x92 : Shape := ⟨2, ![50000, 92]⟩
abbrev S2x400000 : Shape := ⟨2, ![2, 400000]⟩
abbrev S50000 : Shape := ⟨1, ![50000]⟩
abbrev S92x256 : Shape := ⟨2, ![92, 256]⟩
abbrev S256 : Shape := ⟨1, ![256]⟩
abbrev S256x256 : Shape := ⟨2, ![256, 256]⟩
abbrev S128 : Shape := ⟨1, ![128]⟩
abbrev S256x128 : Shape := ⟨2, ![256, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x92 : S_.BroadcastsInDim S50000x92 (![] : Fin 0 → Fin S50000x92.rank)
  reducesTo_S50000x92_S_d0_1 : S50000x92.ReducesTo [0, 1] S_
  h_S_ : 0 < S_.numel
  bcast_S_S92x256 : S_.BroadcastsInDim S92x256 (![] : Fin 0 → Fin S92x256.rank)
  reducesTo_S92x256_S_d0_1 : S92x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg13 : FVec F S128x64 .f32) (main_arg14 : FVec F S64 .f32) (main_arg15 : FVec F S64x1 .f32) (main_arg16 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg13
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg15
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg16 main_v63 main_v67

def fn_part2 {F : FTy → Type} [FloatOps F] (main_arg9 : FVec F S128 .f32) (main_arg10 : FVec F S128 .f32) (main_arg11 : FVec F S256x128 .f32) (main_arg12 : FVec F S128 .f32) (main_arg13 : FVec F S128x64 .f32) (main_arg14 : FVec F S64 .f32) (main_arg15 : FVec F S64x1 .f32) (main_arg16 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg11
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S256 .f32) (main_arg7 : FVec F S256x256 .f32) (main_arg8 : FVec F S256 .f32) (main_arg9 : FVec F S128 .f32) (main_arg10 : FVec F S128 .f32) (main_arg11 : FVec F S256x128 .f32) (main_arg12 : FVec F S128 .f32) (main_arg13 : FVec F S128x64 .f32) (main_arg14 : FVec F S64 .f32) (main_arg15 : FVec F S64x1 .f32) (main_arg16 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x92 .f32) (main_arg1 : IVec S2x400000 32) (main_arg2 : IVec S50000 32) (main_arg3 : FVec F S92x256 .f32) (main_arg4 : FVec F S256 .f32) (main_arg5 : FVec F S256 .f32) (main_arg6 : FVec F S256 .f32) (main_arg7 : FVec F S256x256 .f32) (main_arg8 : FVec F S256 .f32) (main_arg9 : FVec F S128 .f32) (main_arg10 : FVec F S128 .f32) (main_arg11 : FVec F S256x128 .f32) (main_arg12 : FVec F S128 .f32) (main_arg13 : FVec F S128x64 .f32) (main_arg14 : FVec F S64 .f32) (main_arg15 : FVec F S64x1 .f32) (main_arg16 : FVec F S1 .f32) : IVec S_ 1 :=
  let main_v0 : FVec F S50000x92 .f32 := Host.absf main_arg0
  let main_cst : FVec F S_ .f32 := constant S_ .f32 0x7F800000#32
  let main_v1 : FVec F S50000x92 .f32 := broadcastInDim S50000x92 ![] bcast_S_S50000x92 main_cst
  let main_v2 : IVec S50000x92 1 := cmpf .olt main_v0 main_v1
  let main_c : IVec S_ 1 := constantI S_ 1 1#1
  let main_v3 : IVec S_ 1 := (fun x v => Host.reduce IntOp.andi x v reducesTo_S50000x92_S_d0_1 h_S_) main_v2 main_c
  let main_v4 : FVec F S92x256 .f32 := Host.absf main_arg3
  let main_cst_0 : FVec F S_ .f32 := constant S_ .f32 0x7F800000#32
  let main_v5 : FVec F S92x256 .f32 := broadcastInDim S92x256 ![] bcast_S_S92x256 main_cst_0
  let main_v6 : IVec S92x256 1 := cmpf .olt main_v4 main_v5
  let main_c_1 : IVec S_ 1 := constantI S_ 1 1#1
  let main_v7 : IVec S_ 1 := (fun x v => Host.reduce IntOp.andi x v reducesTo_S92x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x92 : Shape := ⟨2, ![50000, 92]⟩
abbrev S2x400000 : Shape := ⟨2, ![2, 400000]⟩
abbrev S50000 : Shape := ⟨1, ![50000]⟩
abbrev S92x256 : Shape := ⟨2, ![92, 256]⟩
abbrev S256 : Shape := ⟨1, ![256]⟩
abbrev S256x256 : Shape := ⟨2, ![256, 256]⟩
abbrev S128 : Shape := ⟨1, ![128]⟩
abbrev S256x128 : Shape := ⟨2, ![256, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S50000x1 : Shape := ⟨2, ![50000, 1]⟩
abbrev S50000x256 : Shape := ⟨2, ![50000, 256]⟩
abbrev S2000x92 : Shape := ⟨2, ![2000, 92]⟩
abbrev S2000x1 : Shape := ⟨2, ![2000, 1]⟩
abbrev S2000x256 : Shape := ⟨2, ![2000, 256]⟩
abbrev S1x256 : Shape := ⟨2, ![1, 256]⟩
abbrev S450000x256 : Shape := ⟨2, ![450000, 256]⟩
abbrev S50000x128 : Shape := ⟨2, ![50000, 128]⟩
abbrev S2000x128 : Shape := ⟨2, ![2000, 128]⟩
abbrev S2000 : Shape := ⟨1, ![2000]⟩
abbrev S450000x128 : Shape := ⟨2, ![450000, 128]⟩
abbrev S512x128 : Shape := ⟨2, ![512, 128]⟩
abbrev S1x128 : Shape := ⟨2, ![1, 128]⟩
abbrev S2000x512 : Shape := ⟨2, ![2000, 512]⟩
abbrev S500x128 : Shape := ⟨2, ![500, 128]⟩
abbrev S500x64 : Shape := ⟨2, ![500, 64]⟩
abbrev S1x64 : Shape := ⟨2, ![1, 64]⟩
abbrev S500x1 : Shape := ⟨2, ![500, 1]⟩
abbrev S1x1 : Shape := ⟨2, ![1, 1]⟩

abbrev nBuf : Space → Nat
  | .hbm => 90
  | .vmem => 32
  | .smem => 0
  | _ => 0

abbrev bufTy : (tb : Table) → Fin (tcTables nBuf tb) → BufTy
  | .hbm, ⟨0, _⟩ => ⟨S50000x92, .f32⟩
  | .hbm, ⟨1, _⟩ => ⟨S2x400000, .i32⟩
  | .hbm, ⟨2, _⟩ => ⟨S50000, .i32⟩
  | .hbm, ⟨3, _⟩ => ⟨S92x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S64x1, .f32⟩
  | .hbm, ⟨16, _⟩ => ⟨S1, .f32⟩
  | .hbm, ⟨17, _⟩ => ⟨S1x400000, .i32⟩
  | .hbm, ⟨18, _⟩ => ⟨S400000, .i32⟩
  | .hbm, ⟨19, _⟩ => ⟨S1x400000, .i32⟩
  | .hbm, ⟨20, _⟩ => ⟨S400000, .i32⟩
  | .hbm, ⟨21, _⟩ => ⟨S50000, .i32⟩
  | .hbm, ⟨22, _⟩ => ⟨S450000, .i32⟩
  | .hbm, ⟨23, _⟩ => ⟨S450000, .i32⟩
  | .hbm, ⟨24, _⟩ => ⟨S_, .f32⟩
  | .hbm, ⟨25, _⟩ => ⟨S450000, .f32⟩
  | .hbm, ⟨26, _⟩ => ⟨S_, .f32⟩
  | .hbm, ⟨27, _⟩ => ⟨S50000, .f32⟩
  | .hbm, ⟨28, _⟩ => ⟨S450000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .i1⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000, .f32⟩
  | .hbm, ⟨37, _⟩ => ⟨S_, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x256, .f32⟩
  | .hbm, ⟨43, _⟩ => ⟨S_, .i32⟩
  | .hbm, ⟨44, _⟩ => ⟨S450000, .i32⟩
  | .hbm, ⟨45, _⟩ => ⟨S450000, .i1⟩
  | .hbm, ⟨46, _⟩ => ⟨S_, .i32⟩
  | .hbm, ⟨47, _⟩ => ⟨S450000, .i32⟩
  | .hbm, ⟨48, _⟩ => ⟨S450000, .i32⟩
  | .hbm, ⟨49, _⟩ => ⟨S450000, .i32⟩
  | .hbm, ⟨50, _⟩ => ⟨S450000x1, .i32⟩
  | .hbm, ⟨51, _⟩ => ⟨S450000x256, .f32⟩
  | .hbm, ⟨52, _⟩ => ⟨S_, .f32⟩
  | .hbm, ⟨53, _⟩ => ⟨S50000x256, .f32⟩
  | .hbm, ⟨54, _⟩ => ⟨S450000x1, .i32⟩
  | .hbm, ⟨55, _⟩ => ⟨S50000x256, .f32⟩
  | .hbm, ⟨56, _⟩ => ⟨S50000x128, .f32⟩
  | .hbm, ⟨57, _⟩ => ⟨S_, .i32⟩
  | .hbm, ⟨58, _⟩ => ⟨S450000, .i32⟩
  | .hbm, ⟨59, _⟩ => ⟨S450000, .i1⟩
  | .hbm, ⟨60, _⟩ => ⟨S_, .i32⟩
  | .hbm, ⟨61, _⟩ => ⟨S450000, .i32⟩
  | .hbm, ⟨62, _⟩ => ⟨S450000, .i32⟩
  | .hbm, ⟨63, _⟩ => ⟨S450000, .i32⟩
  | .hbm, ⟨64, _⟩ => ⟨S450000x1, .i32⟩
  | .hbm, ⟨65, _⟩ => ⟨S450000x128, .f32⟩
  | .hbm, ⟨66, _⟩ => ⟨S_, .f32⟩
  | .hbm, ⟨67, _⟩ => ⟨S50000x128, .f32⟩
  | .hbm, ⟨68, _⟩ => ⟨S450000x1, .i32⟩
  | .hbm, ⟨69, _⟩ => ⟨S50000x128, .f32⟩
  | .hbm, ⟨70, _⟩ => ⟨S50000x1, .i32⟩
  | .hbm, ⟨71, _⟩ => ⟨S50000x128, .f32⟩
  | .hbm, ⟨72, _⟩ => ⟨S512x128, .f32⟩
  | .hbm, ⟨73, _⟩ => ⟨S500x128, .f32⟩
  | .hbm, ⟨74, _⟩ => ⟨S500x64, .f32⟩
  | .hbm, ⟨75, _⟩ => ⟨S1x64, .f32⟩
  | .hbm, ⟨76, _⟩ => ⟨S500x64, .f32⟩
  | .hbm, ⟨77, _⟩ => ⟨S500x64, .f32⟩
  | .hbm, ⟨78, _⟩ => ⟨S_, .f32⟩
  | .hbm, ⟨79, _⟩ => ⟨S_, .f32⟩
  | .hbm, ⟨80, _⟩ => ⟨S500x64, .f32⟩
  | .hbm, ⟨81, _⟩ => ⟨S500x64, .i1⟩
  | .hbm, ⟨82, _⟩ => ⟨S_, .f32⟩
  | .hbm, ⟨83, _⟩ => ⟨S500x64, .f32⟩
  | .hbm, ⟨84, _⟩ => ⟨S500x64, .f32⟩
  | .hbm, ⟨85, _⟩ => ⟨S500x64, .f32⟩
  | .hbm, ⟨86, _⟩ => ⟨S500x1, .f32⟩
  | .hbm, ⟨87, _⟩ => ⟨S1x1, .f32⟩
  | .hbm, ⟨88, _⟩ => ⟨S500x1, .f32⟩
  | .hbm, ⟨89, _⟩ => ⟨S500x1, .f32⟩
  | .local _ .vmem, ⟨0, _⟩ => ⟨S2000x92, .f32⟩
  | .local _ .vmem, ⟨1, _⟩ => ⟨S2000x92, .f32⟩
  | .local _ .vmem, ⟨2, _⟩ => ⟨S92x256, .f32⟩
  | .local _ .vmem, ⟨3, _⟩ => ⟨S256, .f32⟩
  | .local _ .vmem, ⟨4, _⟩ => ⟨S256x256, .f32⟩
  | .local _ .vmem, ⟨5, _⟩ => ⟨S2000x1, .f32⟩
  | .local _ .vmem, ⟨6, _⟩ => ⟨S2000x1, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x1, .f32⟩
  | .local _ .vmem, ⟨12, _⟩ => ⟨S2000x1, .f32⟩
  | .local _ .vmem, ⟨13, _⟩ => ⟨S256, .f32⟩
  | .local _ .vmem, ⟨14, _⟩ => ⟨S256, .f32⟩
  | .local _ .vmem, ⟨15, _⟩ => ⟨S256, .f32⟩
  | .local _ .vmem, ⟨16, _⟩ => ⟨S256x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x1, .f32⟩
  | .local _ .vmem, ⟨22, _⟩ => ⟨S2000x1, .f32⟩
  | .local _ .vmem, ⟨23, _⟩ => ⟨S128, .f32⟩
  | .local _ .vmem, ⟨24, _⟩ => ⟨S128, .f32⟩
  | .local _ .vmem, ⟨25, _⟩ => ⟨S128, .f32⟩
  | .local _ .vmem, ⟨26, _⟩ => ⟨S2000x1, .i32⟩
  | .local _ .vmem, ⟨27, _⟩ => ⟨S2000x1, .i32⟩
  | .local _ .vmem, ⟨28, _⟩ => ⟨S2000x128, .f32⟩
  | .local _ .vmem, ⟨29, _⟩ => ⟨S2000x128, .f32⟩
  | .local _ .vmem, ⟨30, _⟩ => ⟨S512x128, .f32⟩
  | .local _ .vmem, ⟨31, _⟩ => ⟨S512x128, .f32⟩
  | _, _ => ⟨S50000x92, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c : Ref sig .tc := ⟨.hbm, 43, rfl⟩
abbrev main_v19 : Ref sig .tc := ⟨.hbm, 44, rfl⟩
abbrev main_v20 : Ref sig .tc := ⟨.hbm, 45, rfl⟩
abbrev main_c_4 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_6 : Ref sig .tc := ⟨.hbm, 57, rfl⟩
abbrev main_v30 : Ref sig .tc := ⟨.hbm, 58, rfl⟩
abbrev main_v31 : Ref sig .tc := ⟨.hbm, 59, rfl⟩
abbrev main_c_7 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_8 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41_0 : Ref sig .tc := ⟨.hbm, 71, rfl⟩
abbrev main_v41_1 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_9 : Ref sig .tc := ⟨.hbm, 78, rfl⟩
abbrev main_call1_cst : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem6_1 : DmaSem sig := 29
abbrev cc2_sem7_0 : DmaSem sig := 30

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x92 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S92x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v73 : BitVec 1 := Scalar.cmpi .eq arg0 c24_i32
  let v74 : BitVec 32 := Scalar.extui v73
  let c0_i32_25 : BitVec 32 := 0#32
  let v75 : BitVec 1 := Scalar.cmpi .ne v74 c0_i32_25
  v75

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x1 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S512x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S400000_S50000_S450000_d0 : Shape.Concatenates [S400000, S50000] S450000 0
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  shapeCasts_S50000_S50000x1 : S50000.ShapeCasts S50000x1
  inb_S2000x92_S2000x92_0_0 : ∀ a, (![0, 0] : Fin 2 → Nat) a + S2000x92.size a ≤ S2000x92.size a
  h_S2000x92 : 0 < S2000x92.numel
  bitsLt_bf16_f32 : FTy.bits .bf16 < FTy.bits .f32
  inb_S92x256_S92x256_0_0 : ∀ a, (![0, 0] : Fin 2 → Nat) a + S92x256.size a ≤ S92x256.size a
  h_S92x256 : 0 < S92x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  shapeCasts_S2000x256_S2000x256 : S2000x256.ShapeCasts S2000x256
  reduces_S2000x256_S2000 : S2000x256.Reduces [1] S2000
  shapeCasts_S2000_S2000x1 : S2000.ShapeCasts S2000x1
  inb_S256x128_S256x128_0_0 : ∀ a, (![0, 0] : Fin 2 → Nat) a + S256x128.size a ≤ S256x128.size a
  h_S256x128 : 0 < S256x128.numel
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  reduces_S2000x128_S2000 : S2000x128.Reduces [1] S2000
  iota_S2000x512_d1_w32 : S2000x512.Iotas .tc 32 [1]
  broadcasts_S2000x1_S2000x512 : S2000x1.Broadcasts S2000x512
  natLt_1_32 : 1 < 32
  slices_S512x128_S500x128_0_0 : S512x128.Slices ![0, 0] S500x128
  bcast_S64_S1x64_1 : S64.BroadcastsInDim S1x64 (![1] : Fin 1 → Fin S1x64.rank)
  bcast_S1x64_S500x64_0_1 : S1x64.BroadcastsInDim S500x64 (![0, 1] : Fin 2 → Fin S500x64.rank)
  bcast_S_S500x64 : S_.BroadcastsInDim S500x64 (![] : Fin 0 → Fin S500x64.rank)
  bcast_S1_S1x1_1 : S1.BroadcastsInDim S1x1 (![1] : Fin 1 → Fin S1x1.rank)
  bcast_S1x1_S500x1_0_1 : S1x1.BroadcastsInDim S500x1 (![0, 1] : Fin 2 → Fin S500x1.rank)
  scatter_S50000_S450000x1_S450000_n_0_0_1_wf : ScatterDims.WF S50000 S450000x1 S450000 [] [0] [0] 1
  dot_S2000x92_S92x256_S2000x256_1_0_0_1_n_n_wf : DotDims.WF S2000x92 S92x256 S2000x256 [1] [0] [0] [1] [] []
  dot_S2000x256_S256x256_S2000x256_1_0_0_1_n_n_wf : DotDims.WF S2000x256 S256x256 S2000x256 [1] [0] [0] [1] [] []
  gather_S50000x256_S450000x1_S450000x256_1_0_n_n_0_1_1256_wf : GatherDims.WF S50000x256 S450000x1 S450000x256 [1] [0] [] [0] [] 1 ![1, 256]
  scatter_S50000x256_S450000x1_S450000x256_1_0_0_1_wf : ScatterDims.WF S50000x256 S450000x1 S450000x256 [1] [0] [0] 1
  dot_S2000x256_S256x128_S2000x128_1_0_0_1_n_n_wf : DotDims.WF S2000x256 S256x128 S2000x128 [1] [0] [0] [1] [] []
  gather_S50000x128_S450000x1_S450000x128_1_0_n_n_0_1_1128_wf : GatherDims.WF S50000x128 S450000x1 S450000x128 [1] [0] [] [0] [] 1 ![1, 128]
  scatter_S50000x128_S450000x1_S450000x128_1_0_0_1_wf : ScatterDims.WF S50000x128 S450000x1 S450000x128 [1] [0] [0] 1
  dot_S2000x512_S2000x128_S512x128_0_0_1_1_n_n_wf : DotDims.WF S2000x512 S2000x128 S512x128 [0] [0] [1] [1] [] []
  dot_S500x128_S128x64_S500x64_1_0_0_1_n_n_wf : DotDims.WF S500x128 S128x64 S500x64 [1] [0] [0] [1] [] []
  dot_S500x64_S64x1_S500x1_1_0_0_1_n_n_wf : DotDims.WF S500x64 S64x1 S500x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x92.size a ≤ S50000x92.size a
  hwx0_0 : ∀ i : grid0.Coords, EltTy.bits .f32 = 32 ∨ (Rect.block (s := S50000x92) S2000x92.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S92x256.size a ≤ S92x256.size a
  hwx0_1 : ∀ i : grid0.Coords, EltTy.bits .f32 = 32 ∨ (Rect.block (s := S92x256) S92x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S50000x1.size a
  hwx0_4 : ∀ i : grid0.Coords, EltTy.bits .f32 = 32 ∨ (Rect.block (s := S50000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x1.size a ≤ S50000x1.size a
  hwx2_5 : ∀ i : grid2.Coords, EltTy.bits .i32 = 32 ∨ (Rect.block (s := S50000x1) S2000x1.size (cc2_transform_5 i) (hinb2_5 i)).WholeWords (EltTy.packing .i32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S512x128.size a ≤ S512x128.size a
  hwx2_7 : ∀ i : grid2.Coords, EltTy.bits .f32 = 32 ∨ (Rect.block (s := S512x128) S512x128.size (cc2_transform_7 i) (hinb2_7 i)).WholeWords (EltTy.packing .f32)

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def dot_S2000x92_S92x256_S2000x256_1_0_0_1_n_n : DotDims S2000x92 S92x256 S2000x256 where
  lhsContracting := [1]
  rhsContracting := [0]
  lhsNonContracting := [0]
  rhsNonContracting := [1]
  lhsBatch := []
  rhsBatch := []
  wf := dot_S2000x92_S92x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S450000x1_S450000x256_1_0_n_n_0_1_1256 : GatherDims S50000x256 S450000x1 S450000x256 where
  offsetDims := [1]
  collapsedSliceDims := [0]
  operandBatchingDims := []
  startIndicesBatchingDims := []
  startIndexMap := [0]
  indexVectorDim := 1
  sliceSizes := ![1, 256]
  wf := gather_S50000x256_S450000x1_S450000x256_1_0_n_n_0_1_1256_wf
def scatter_S50000x256_S450000x1_S450000x256_1_0_0_1 : ScatterDims S50000x256 S450000x1 S450000x256 where
  updateWindowDims := [1]
  insertedWindowDims := [0]
  scatterDimsToOperandDims := [0]
  indexVectorDim := 1
  wf := scatter_S50000x256_S450000x1_S450000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S450000x1_S450000x128_1_0_n_n_0_1_1128 : GatherDims S50000x128 S450000x1 S450000x128 where
  offsetDims := [1]
  collapsedSliceDims := [0]
  operandBatchingDims := []
  startIndicesBatchingDims := []
  startIndexMap := [0]
  indexVectorDim := 1
  sliceSizes := ![1, 128]
  wf := gather_S50000x128_S450000x1_S450000x128_1_0_n_n_0_1_1128_wf
def scatter_S50000x128_S450000x1_S450000x128_1_0_0_1 : ScatterDims S50000x128 S450000x1 S450000x128 where
  updateWindowDims := [1]
  insertedWindowDims := [0]
  scatterDimsToOperandDims := [0]
  indexVectorDim := 1
  wf := scatter_S50000x128_S450000x1_S450000x128_1_0_0_1_wf
def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf
def dot_S500x128_S128x64_S500x64_1_0_0_1_n_n : DotDims S500x128 S128x64 S500x64 where
  lhsContracting := [1]
  rhsContracting := [0]
  lhsNonContracting := [0]
  rhsNonContracting := [1]
  lhsBatch := []
  rhsBatch := []
  wf := dot_S500x128_S128x64_S500x64_1_0_0_1_n_n_wf
def dot_S500x64_S64x1_S500x1_1_0_0_1_n_n : DotDims S500x64 S64x1 S500x1 where
  lhsContracting := [1]
  rhsContracting := [0]
  lhsNonContracting := [0]
  rhsNonContracting := [1]
  lhsBatch := []
  rhsBatch := []
  wf := dot_S500x64_S64x1_S500x1_1_0_0_1_n_n_wf

abbrev win0_0 : Pipeline.Window sig grid0 :=
  Pipeline.Window.ofSpec (Memref.whole main_arg0) S2000x92.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S92x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v39) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S2000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v41_0) S2000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v41_1) S512x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

class Facts : Prop extends Facts₀ where

variable [Facts]
-- ==== ReferenceIdeal.lean ====
abbrev S50000x92 : Shape := ⟨2, ![50000, 92]⟩
abbrev S2x400000 : Shape := ⟨2, ![2, 400000]⟩
abbrev S50000 : Shape := ⟨1, ![50000]⟩
abbrev S92x256 : Shape := ⟨2, ![92, 256]⟩
abbrev S256 : Shape := ⟨1, ![256]⟩
abbrev S256x256 : Shape := ⟨2, ![256, 256]⟩
abbrev S128 : Shape := ⟨1, ![128]⟩
abbrev S256x128 : Shape := ⟨2, ![256, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x400000 : Shape := ⟨2, ![1, 400000]⟩
abbrev S400000 : Shape := ⟨1, ![400000]⟩
abbrev S50000x256 : Shape := ⟨2, ![50000, 256]⟩
abbrev S1x256 : Shape := ⟨2, ![1, 256]⟩
abbrev S_ : Shape := ⟨0, ![]⟩
abbrev S450000 : Shape := ⟨1, ![450000]⟩
abbrev S450000x1 : Shape := ⟨2, ![450000, 1]⟩
abbrev S450000x256 : Shape := ⟨2, ![450000, 256]⟩
abbrev S50000x1 : Shape := ⟨2, ![50000, 1]⟩
abbrev S50000x128 : Shape := ⟨2, ![50000, 128]⟩
abbrev S450000x128 : Shape := ⟨2, ![450000, 128]⟩
abbrev S1x128 : Shape := ⟨2, ![1, 128]⟩
abbrev S500x128 : Shape := ⟨2, ![500, 128]⟩
abbrev S500x64 : Shape := ⟨2, ![500, 64]⟩
abbrev S1x64 : Shape := ⟨2, ![1, 64]⟩
abbrev S500x1 : Shape := ⟨2, ![500, 1]⟩
abbrev S1x1 : Shape := ⟨2, ![1, 1]⟩

abbrev nBuf : Space → Nat
  | .hbm => 261
  | .vmem => 0
  | .smem => 0
  | _ => 0

abbrev hbmTy0_0 (i : Nat) : BufTy := match i % 128 with
  | 0 => ⟨S50000x92, .f32⟩
  | 1 => ⟨S2x400000, .i32⟩
  | 2 => ⟨S50000, .i32⟩
  | 3 => ⟨S92x256, .f32⟩
  | 4 => ⟨S256, .f32⟩
  | 5 => ⟨S256, .f32⟩
  | 6 => ⟨S256, .f32⟩
  | 7 => ⟨S256x256, .f32⟩
  | 8 => ⟨S256, .f32⟩
  | 9 => ⟨S128, .f32⟩
  | 10 => ⟨S128, .f32⟩
  | 11 => ⟨S256x128, .f32⟩
  | 12 => ⟨S128, .f32⟩
  | 13 => ⟨S128x64, .f32⟩
  | 14 => ⟨S64, .f32⟩
  | 15 => ⟨S64x1, .f32⟩
  | 16 => ⟨S1, .f32⟩
  | 17 => ⟨S1x400000, .i32⟩
  | 18 => ⟨S400000, .i32⟩
  | 19 => ⟨S1x400000, .i32⟩
  | 20 => ⟨S400000, .i32⟩
  | 21 => ⟨S50000x256, .f32⟩
  | 22 => ⟨S1x256, .f32⟩
  | 23 => ⟨S50000x256, .f32⟩
  | 24 => ⟨S50000x256, .f32⟩
  | 25 => ⟨S_, .f32⟩
  | 26 => ⟨S50000x256, .f32⟩
  | 27 => ⟨S50000x256, .i1⟩
  | 28 => ⟨S_, .f32⟩
  | 29 => ⟨S50000x256, .f32⟩
  | 30 => ⟨S50000x256, .f32⟩
  | 31 => ⟨S50000x256, .f32⟩
  | 32 => ⟨S50000x256, .f32⟩
  | 33 => ⟨S50000, .i32⟩
  | 34 => ⟨S450000, .i32⟩
  | 35 => ⟨S450000, .i32⟩
  | 36 => ⟨S_, .f32⟩
  | 37 => ⟨S450000, .f32⟩
  | 38 => ⟨S_, .f32⟩
  | 39 => ⟨S50000, .f32⟩
  | 40 => ⟨S450000x1, .i32⟩
  | 41 => ⟨S50000, .f32⟩
  | 42 => ⟨S_, .f32⟩
  | 43 => ⟨S50000, .f32⟩
  | 44 => ⟨S50000, .i1⟩
  | 45 => ⟨S_, .f32⟩
  | 46 => ⟨S50000, .f32⟩
  | 47 => ⟨S50000, .f32⟩
  | 48 => ⟨S50000, .f32⟩
  | 49 => ⟨S_, .f32⟩
  | 50 => ⟨S50000, .f32⟩
  | 51 => ⟨S50000, .i1⟩
  | 52 => ⟨S50000, .f32⟩
  | 53 => ⟨S50000, .f32⟩
  | 54 => ⟨S_, .f32⟩
  | 55 => ⟨S_, .f32⟩
  | 56 => ⟨S50000, .f32⟩
  | 57 => ⟨S50000, .f32⟩
  | 58 => ⟨S_, .i32⟩
  | 59 => ⟨S450000, .i32⟩
  | 60 => ⟨S450000, .i1⟩
  | 61 => ⟨S_, .i32⟩
  | 62 => ⟨S450000, .i32⟩
  | 63 => ⟨S450000, .i32⟩
  | 64 => ⟨S450000, .i32⟩
  | 65 => ⟨S450000x1, .i32⟩
  | 66 => ⟨S450000, .f32⟩
  | 67 => ⟨S_, .i32⟩
  | 68 => ⟨S450000, .i32⟩
  | 69 => ⟨S450000, .i1⟩
  | 70 => ⟨S_, .i32⟩
  | 71 => ⟨S450000, .i32⟩
  | 72 => ⟨S450000, .i32⟩
  | 73 => ⟨S450000, .i32⟩
  | 74 => ⟨S450000x1, .i32⟩
  | 75 => ⟨S450000, .f32⟩
  | 76 => ⟨S450000, .f32⟩
  | 77 => ⟨S_, .i32⟩
  | 78 => ⟨S450000, .i32⟩
  | 79 => ⟨S450000, .i1⟩
  | 80 => ⟨S_, .i32⟩
  | 81 => ⟨S450000, .i32⟩
  | 82 => ⟨S450000, .i32⟩
  | 83 => ⟨S450000, .i32⟩
  | 84 => ⟨S450000x1, .i32⟩
  | 85 => ⟨S450000x256, .f32⟩
  | 86 => ⟨S450000x1, .f32⟩
  | 87 => ⟨S450000x256, .f32⟩
  | 88 => ⟨S450000x256, .f32⟩
  | 89 => ⟨S_, .f32⟩
  | 90 => ⟨S50000x256, .f32⟩
  | 91 => ⟨S450000x1, .i32⟩
  | 92 => ⟨S50000x256, .f32⟩
  | 93 => ⟨S1x256, .f32⟩
  | 94 => ⟨S50000x256, .f32⟩
  | 95 => ⟨S50000x256, .f32⟩
  | 96 => ⟨S_, .f32⟩
  | 97 => ⟨S50000, .f32⟩
  | 98 => ⟨S50000x1, .f32⟩
  | 99 => ⟨S_, .f32⟩
  | 100 => ⟨S50000x1, .f32⟩
  | 101 => ⟨S50000x1, .f32⟩
  | 102 => ⟨S50000x256, .f32⟩
  | 103 => ⟨S50000x256, .f32⟩
  | 104 => ⟨S50000x256, .f32⟩
  | 105 => ⟨S_, .f32⟩
  | 106 => ⟨S50000, .f32⟩
  | 107 => ⟨S50000x1, .f32⟩
  | 108 => ⟨S_, .f32⟩
  | 109 => ⟨S50000x1, .f32⟩
  | 110 => ⟨S50000x1, .f32⟩
  | 111 => ⟨S50000x256, .f32⟩
  | 112 => ⟨S50000x256, .f32⟩
  | 113 => ⟨S_, .f32⟩
  | 114 => ⟨S50000x1, .f32⟩
  | 115 => ⟨S50000x1, .f32⟩
  | 116 => ⟨S50000x1, .f32⟩
  | 117 => ⟨S50000x256, .f32⟩
  | 118 => ⟨S50000x256, .f32⟩
  | 119 => ⟨S1x256, .f32⟩
  | 120 => ⟨S50000x256, .f32⟩
  | 121 => ⟨S50000x256, .f32⟩
  | 122 => ⟨S1x256, .f32⟩
  | 123 => ⟨S50000x256, .f32⟩
  | 124 => ⟨S50000x256, .f32⟩
  | 125 => ⟨S_, .f32⟩
  | 126 => ⟨S50000x256, .f32⟩
  | 127 => ⟨S50000x256, .i1⟩
  | _ => ⟨S50000x92, .f32⟩

abbrev hbmTy0_1 (i : Nat) : BufTy := match i % 128 with
  | 0 => ⟨S_, .f32⟩
  | 1 => ⟨S50000x256, .f32⟩
  | 2 => ⟨S50000x256, .f32⟩
  | 3 => ⟨S50000x256, .f32⟩
  | 4 => ⟨S50000x128, .f32⟩
  | 5 => ⟨S50000, .i32⟩
  | 6 => ⟨S450000, .i32⟩
  | 7 => ⟨S450000, .i32⟩
  | 8 => ⟨S_, .f32⟩
  | 9 => ⟨S450000, .f32⟩
  | 10 => ⟨S_, .f32⟩
  | 11 => ⟨S50000, .f32⟩
  | 12 => ⟨S450000x1, .i32⟩
  | 13 => ⟨S50000, .f32⟩
  | 14 => ⟨S_, .f32⟩
  | 15 => ⟨S50000, .f32⟩
  | 16 => ⟨S50000, .i1⟩
  | 17 => ⟨S_, .f32⟩
  | 18 => ⟨S50000, .f32⟩
  | 19 => ⟨S50000, .f32⟩
  | 20 => ⟨S50000, .f32⟩
  | 21 => ⟨S_, .f32⟩
  | 22 => ⟨S50000, .f32⟩
  | 23 => ⟨S50000, .i1⟩
  | 24 => ⟨S50000, .f32⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S450000, .i32⟩
  | 32 => ⟨S450000, .i1⟩
  | 33 => ⟨S_, .i32⟩
  | 34 => ⟨S450000, .i32⟩
  | 35 => ⟨S450000, .i32⟩
  | 36 => ⟨S450000, .i32⟩
  | 37 => ⟨S450000x1, .i32⟩
  | 38 => ⟨S450000, .f32⟩
  | 39 => ⟨S_, .i32⟩
  | 40 => ⟨S450000, .i32⟩
  | 41 => ⟨S450000, .i1⟩
  | 42 => ⟨S_, .i32⟩
  | 43 => ⟨S450000, .i32⟩
  | 44 => ⟨S450000, .i32⟩
  | 45 => ⟨S450000, .i32⟩
  | 46 => ⟨S450000x1, .i32⟩
  | 47 => ⟨S450000, .f32⟩
  | 48 => ⟨S450000, .f32⟩
  | 49 => ⟨S_, .i32⟩
  | 50 => ⟨S450000, .i32⟩
  | 51 => ⟨S450000, .i1⟩
  | 52 => ⟨S_, .i32⟩
  | 53 => ⟨S450000, .i32⟩
  | 54 => ⟨S450000, .i32⟩
  | 55 => ⟨S450000, .i32⟩
  | 56 => ⟨S450000x1, .i32⟩
  | 57 => ⟨S450000x128, .f32⟩
  | 58 => ⟨S450000x1, .f32⟩
  | 59 => ⟨S450000x128, .f32⟩
  | 60 => ⟨S450000x128, .f32⟩
  | 61 => ⟨S_, .f32⟩
  | 62 => ⟨S50000x128, .f32⟩
  | 63 => ⟨S450000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000, .f32⟩
  | 70 => ⟨S50000x1, .f32⟩
  | 71 => ⟨S_, .f32⟩
  | 72 => ⟨S50000x1, .f32⟩
  | 73 => ⟨S50000x1, .f32⟩
  | 74 => ⟨S50000x128, .f32⟩
  | 75 => ⟨S50000x128, .f32⟩
  | 76 => ⟨S50000x128, .f32⟩
  | 77 => ⟨S_, .f32⟩
  | 78 => ⟨S50000, .f32⟩
  | 79 => ⟨S50000x1, .f32⟩
  | 80 => ⟨S_, .f32⟩
  | 81 => ⟨S50000x1, .f32⟩
  | 82 => ⟨S50000x1, .f32⟩
  | 83 => ⟨S50000x128, .f32⟩
  | 84 => ⟨S50000x128, .f32⟩
  | 85 => ⟨S_, .f32⟩
  | 86 => ⟨S50000x1, .f32⟩
  | 87 => ⟨S50000x1, .f32⟩
  | 88 => ⟨S50000x1, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .i1⟩
  | 100 => ⟨S_, .f32⟩
  | 101 => ⟨S50000x128, .f32⟩
  | 102 => ⟨S50000x128, .f32⟩
  | 103 => ⟨S50000x128, .f32⟩
  | 104 => ⟨S50000x128, .f32⟩
  | 105 => ⟨S_, .f32⟩
  | 106 => ⟨S50000, .f32⟩
  | 107 => ⟨S50000x1, .f32⟩
  | 108 => ⟨S50000x1, .f32⟩
  | 109 => ⟨S_, .f32⟩
  | 110 => ⟨S50000x1, .f32⟩
  | 111 => ⟨S50000x1, .f32⟩
  | 112 => ⟨S50000x128, .f32⟩
  | 113 => ⟨S50000x128, .f32⟩
  | 114 => ⟨S_, .f32⟩
  | 115 => ⟨S500x128, .f32⟩
  | 116 => ⟨S50000x1, .i32⟩
  | 117 => ⟨S500x128, .f32⟩
  | 118 => ⟨S500x64, .f32⟩
  | 119 => ⟨S1x64, .f32⟩
  | 120 => ⟨S500x64, .f32⟩
  | 121 => ⟨S500x64, .f32⟩
  | 122 => ⟨S_, .f32⟩
  | 123 => ⟨S500x64, .f32⟩
  | 124 => ⟨S500x64, .i1⟩
  | 125 => ⟨S_, .f32⟩
  | 126 => ⟨S500x64, .f32⟩
  | 127 => ⟨S500x64, .f32⟩
  | _ => ⟨S50000x92, .f32⟩

abbrev hbmTy0_2 (i : Nat) : BufTy := match i % 128 with
  | 0 => ⟨S500x64, .f32⟩
  | 1 => ⟨S500x1, .f32⟩
  | 2 => ⟨S1x1, .f32⟩
  | 3 => ⟨S500x1, .f32⟩
  | 4 => ⟨S500x1, .f32⟩
  | _ => ⟨S50000x92, .f32⟩

abbrev hbmTy (i : Nat) : BufTy := match i / 128 with
  | 0 => hbmTy0_0 i
  | 1 => hbmTy0_1 i
  | 2 => hbmTy0_2 i
  | _ => ⟨S50000x92, .f32⟩

abbrev bufTy : (tb : Table) → Fin (tcTables nBuf tb) → BufTy
  | .hbm, ⟨i, _⟩ => hbmTy i
  | _, _ => ⟨S50000x92, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_cst_0 : Ref sig .tc := ⟨.hbm, 28, rfl⟩
abbrev main_call0_v2 : Ref sig .tc := ⟨.hbm, 29, rfl⟩
abbrev main_call0_v3 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst : Ref sig .tc := ⟨.hbm, 36, rfl⟩
abbrev main_v13 : Ref sig .tc := ⟨.hbm, 37, rfl⟩
abbrev main_cst_0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_1 : Ref sig .tc := ⟨.hbm, 42, rfl⟩
abbrev main_v17 : Ref sig .tc := ⟨.hbm, 43, rfl⟩
abbrev main_v18 : Ref sig .tc := ⟨.hbm, 44, rfl⟩
abbrev main_cst_2 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_3 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_4 : Ref sig .tc := ⟨.hbm, 54, rfl⟩
abbrev main_call1_v0 : Ref sig .tc := ⟨.hbm, 55, rfl⟩
abbrev main_call1_v1 : Ref sig .tc := ⟨.hbm, 56, rfl⟩
abbrev main_v26 : Ref sig .tc := ⟨.hbm, 57, rfl⟩
abbrev main_c : Ref sig .tc := ⟨.hbm, 58, rfl⟩
abbrev main_v27 : Ref sig .tc := ⟨.hbm, 59, rfl⟩
abbrev main_v28 : Ref sig .tc := ⟨.hbm, 60, rfl⟩
abbrev main_c_5 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_c_6 : Ref sig .tc := ⟨.hbm, 67, rfl⟩
abbrev main_v34 : Ref sig .tc := ⟨.hbm, 68, rfl⟩
abbrev main_v35 : Ref sig .tc := ⟨.hbm, 69, rfl⟩
abbrev main_c_7 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_c_8 : Ref sig .tc := ⟨.hbm, 77, rfl⟩
abbrev main_v42 : Ref sig .tc := ⟨.hbm, 78, rfl⟩
abbrev main_v43 : Ref sig .tc := ⟨.hbm, 79, rfl⟩
abbrev main_c_9 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_10 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_11 : Ref sig .tc := ⟨.hbm, 96, rfl⟩
abbrev main_v58 : Ref sig .tc := ⟨.hbm, 97, rfl⟩
abbrev main_v59 : Ref sig .tc := ⟨.hbm, 98, rfl⟩
abbrev main_cst_12 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_13 : Ref sig .tc := ⟨.hbm, 105, rfl⟩
abbrev main_v65 : Ref sig .tc := ⟨.hbm, 106, rfl⟩
abbrev main_v66 : Ref sig .tc := ⟨.hbm, 107, rfl⟩
abbrev main_cst_14 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_15 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_call2_cst : Ref sig .tc := ⟨.hbm, 125, rfl⟩
abbrev main_call2_v0 : Ref sig .tc := ⟨.hbm, 126, rfl⟩
abbrev main_call2_v1 : Ref sig .tc := ⟨.hbm, 127, rfl⟩
abbrev main_call2_cst_0 : Ref sig .tc := ⟨.hbm, 128, rfl⟩
abbrev main_call2_v2 : Ref sig .tc := ⟨.hbm, 129, rfl⟩
abbrev main_call2_v3 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_cst_16 : Ref sig .tc := ⟨.hbm, 136, rfl⟩
abbrev main_v87 : Ref sig .tc := ⟨.hbm, 137, rfl⟩
abbrev main_cst_17 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_cst_18 : Ref sig .tc := ⟨.hbm, 142, rfl⟩
abbrev main_v91 : Ref sig .tc := ⟨.hbm, 143, rfl⟩
abbrev main_v92 : Ref sig .tc := ⟨.hbm, 144, rfl⟩
abbrev main_cst_19 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_cst_20 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_cst_21 : Ref sig .tc := ⟨.hbm, 154, rfl⟩
abbrev main_call3_v0 : Ref sig .tc := ⟨.hbm, 155, rfl⟩
abbrev main_call3_v1 : Ref sig .tc := ⟨.hbm, 156, rfl⟩
abbrev main_v100 : Ref sig .tc := ⟨.hbm, 157, rfl⟩
abbrev main_c_22 : Ref sig .tc := ⟨.hbm, 158, rfl⟩
abbrev main_v101 : Ref sig .tc := ⟨.hbm, 159, rfl⟩
abbrev main_v102 : Ref sig .tc := ⟨.hbm, 160, rfl⟩
abbrev main_c_23 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_c_24 : Ref sig .tc := ⟨.hbm, 167, rfl⟩
abbrev main_v108 : Ref sig .tc := ⟨.hbm, 168, rfl⟩
abbrev main_v109 : Ref sig .tc := ⟨.hbm, 169, rfl⟩
abbrev main_c_25 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_c_26 : Ref sig .tc := ⟨.hbm, 177, rfl⟩
abbrev main_v116 : Ref sig .tc := ⟨.hbm, 178, rfl⟩
abbrev main_v117 : Ref sig .tc := ⟨.hbm, 179, rfl⟩
abbrev main_c_27 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_cst_28 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_cst_29 : Ref sig .tc := ⟨.hbm, 196, rfl⟩
abbrev main_v132 : Ref sig .tc := ⟨.hbm, 197, rfl⟩
abbrev main_v133 : Ref sig .tc := ⟨.hbm, 198, rfl⟩
abbrev main_cst_30 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_cst_31 : Ref sig .tc := ⟨.hbm, 205, rfl⟩
abbrev main_v139 : Ref sig .tc := ⟨.hbm, 206, rfl⟩
abbrev main_v140 : Ref sig .tc := ⟨.hbm, 207, rfl⟩
abbrev main_cst_32 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_cst_33 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_call4_cst : Ref sig .tc := ⟨.hbm, 225, rfl⟩
abbrev main_call4_v0 : Ref sig .tc := ⟨.hbm, 226, rfl⟩
abbrev main_call4_v1 : Ref sig .tc := ⟨.hbm, 227, rfl⟩
abbrev main_call4_cst_0 : Ref sig .tc := ⟨.hbm, 228, rfl⟩
abbrev main_call4_v2 : Ref sig .tc := ⟨.hbm, 229, rfl⟩
abbrev main_call4_v3 : Ref sig .tc := ⟨.hbm, 230, rfl⟩
abbrev main_v156 : Ref sig .tc := ⟨.hbm, 231, rfl⟩
abbrev main_call5_v0 : Ref sig .tc := ⟨.hbm, 232, rfl⟩
abbrev main_call5_cst : Ref sig .tc := ⟨.hbm, 233, rfl⟩
abbrev main_call5_v1 : Ref sig .tc := ⟨.hbm, 234, rfl⟩
abbrev main_call5_v2 : Ref sig .tc := ⟨.hbm, 235, rfl⟩
abbrev main_v157 : Ref sig .tc := ⟨.hbm, 236, rfl⟩
abbrev main_cst_34 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_cst_35 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_call6_cst : Ref sig .tc := ⟨.hbm, 250, rfl⟩
abbrev main_call6_v0 : Ref sig .tc := ⟨.hbm, 251, rfl⟩
abbrev main_call6_v1 : Ref sig .tc := ⟨.hbm, 252, rfl⟩
abbrev main_call6_cst_0 : Ref sig .tc := ⟨.hbm, 253, rfl⟩
abbrev main_call6_v2 : Ref sig .tc := ⟨.hbm, 254, rfl⟩
abbrev main_call6_v3 : Ref sig .tc := ⟨.hbm, 255, rfl⟩
abbrev main_v169 : Ref sig .tc := ⟨.hbm, 256, rfl⟩
abbrev main_v170 : Ref sig .tc := ⟨.hbm, 257, rfl⟩
abbrev main_v171 : Ref sig .tc := ⟨.hbm, 258, rfl⟩
abbrev main_v172 : Ref sig .tc := ⟨.hbm, 259, rfl⟩
abbrev main_v173 : Ref sig .tc := ⟨.hbm, 260, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  concatenates_S400000_S50000_S450000_d0 : Shape.Concatenates [S400000, S50000] S450000 0
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bcast_S450000x1_S450000x256_0_1 : S450000x1.BroadcastsInDim S450000x256 (![0, 1] : Fin 2 → Fin S450000x256.rank)
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S450000x1_S450000x128_0_1 : S450000x1.BroadcastsInDim S450000x128 (![0, 1] : Fin 2 → Fin S450000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  bcast_S50000x1_S50000x128_0_1 : S50000x1.BroadcastsInDim S50000x128 (![0, 1] : Fin 2 → Fin S50000x128.rank)
  bcast_S_S500x128 : S_.BroadcastsInDim S500x128 (![] : Fin 0 → Fin S500x128.rank)
  bcast_S64_S1x64_1 : S64.BroadcastsInDim S1x64 (![1] : Fin 1 → Fin S1x64.rank)
  bcast_S1x64_S500x64_0_1 : S1x64.BroadcastsInDim S500x64 (![0, 1] : Fin 2 → Fin S500x64.rank)
  bcast_S_S500x64 : S_.BroadcastsInDim S500x64 (![] : Fin 0 → Fin S500x64.rank)
  bcast_S1_S1x1_1 : S1.BroadcastsInDim S1x1 (![1] : Fin 1 → Fin S1x1.rank)
  bcast_S1x1_S500x1_0_1 : S1x1.BroadcastsInDim S500x1 (![0, 1] : Fin 2 → Fin S500x1.rank)
  dot_S50000x92_S92x256_S50000x256_1_0_0_1_n_n_wf : DotDims.WF S50000x92 S92x256 S50000x256 [1] [0] [0] [1] [] []
  dot_S50000x256_S256x256_S50000x256_1_0_0_1_n_n_wf : DotDims.WF S50000x256 S256x256 S50000x256 [1] [0] [0] [1] [] []
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  gather_S50000x256_S450000x1_S450000x256_1_0_n_n_0_1_1256_wf : GatherDims.WF S50000x256 S450000x1 S450000x256 [1] [0] [] [0] [] 1 ![1, 256]
  scatter_S50000x256_S450000x1_S450000x256_1_0_0_1_wf : ScatterDims.WF S50000x256 S450000x1 S450000x256 [1] [0] [0] 1
  dot_S50000x256_S256x128_S50000x128_1_0_0_1_n_n_wf : DotDims.WF S50000x256 S256x128 S50000x128 [1] [0] [0] [1] [] []
  gather_S50000x128_S450000x1_S450000x128_1_0_n_n_0_1_1128_wf : GatherDims.WF S50000x128 S450000x1 S450000x128 [1] [0] [] [0] [] 1 ![1, 128]
  scatter_S50000x128_S450000x1_S450000x128_1_0_0_1_wf : ScatterDims.WF S50000x128 S450000x1 S450000x128 [1] [0] [0] 1
  scatter_S500x128_S50000x1_S50000x128_1_0_0_1_wf : ScatterDims.WF S500x128 S50000x1 S50000x128 [1] [0] [0] 1
  dot_S500x128_S128x64_S500x64_1_0_0_1_n_n_wf : DotDims.WF S500x128 S128x64 S500x64 [1] [0] [0] [1] [] []
  dot_S500x64_S64x1_S500x1_1_0_0_1_n_n_wf : DotDims.WF S500x64 S64x1 S500x1 [1] [0] [0] [1] [] []

variable [Facts₀]

def dot_S50000x92_S92x256_S50000x256_1_0_0_1_n_n : DotDims S50000x92 S92x256 S50000x256 where
  lhsContracting := [1]
  rhsContracting := [0]
  lhsNonContracting := [0]
  rhsNonContracting := [1]
  lhsBatch := []
  rhsBatch := []
  wf := dot_S50000x92_S92x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def gather_S50000x256_S450000x1_S450000x256_1_0_n_n_0_1_1256 : GatherDims S50000x256 S450000x1 S450000x256 where
  offsetDims := [1]
  collapsedSliceDims := [0]
  operandBatchingDims := []
  startIndicesBatchingDims := []
  startIndexMap := [0]
  indexVectorDim := 1
  sliceSizes := ![1, 256]
  wf := gather_S50000x256_S450000x1_S450000x256_1_0_n_n_0_1_1256_wf
def scatter_S50000x256_S450000x1_S450000x256_1_0_0_1 : ScatterDims S50000x256 S450000x1 S450000x256 where
  updateWindowDims := [1]
  insertedWindowDims := [0]
  scatterDimsToOperandDims := [0]
  indexVectorDim := 1
  wf := scatter_S50000x256_S450000x1_S450000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S450000x1_S450000x128_1_0_n_n_0_1_1128 : GatherDims S50000x128 S450000x1 S450000x128 where
  offsetDims := [1]
  collapsedSliceDims := [0]
  operandBatchingDims := []
  startIndicesBatchingDims := []
  startIndexMap := [0]
  indexVectorDim := 1
  sliceSizes := ![1, 128]
  wf := gather_S50000x128_S450000x1_S450000x128_1_0_n_n_0_1_1128_wf
def scatter_S50000x128_S450000x1_S450000x128_1_0_0_1 : ScatterDims S50000x128 S450000x1 S450000x128 where
  updateWindowDims := [1]
  insertedWindowDims := [0]
  scatterDimsToOperandDims := [0]
  indexVectorDim := 1
  wf := scatter_S50000x128_S450000x1_S450000x128_1_0_0_1_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def dot_S500x128_S128x64_S500x64_1_0_0_1_n_n : DotDims S500x128 S128x64 S500x64 where
  lhsContracting := [1]
  rhsContracting := [0]
  lhsNonContracting := [0]
  rhsNonContracting := [1]
  lhsBatch := []
  rhsBatch := []
  wf := dot_S500x128_S128x64_S500x64_1_0_0_1_n_n_wf
def dot_S500x64_S64x1_S500x1_1_0_0_1_n_n : DotDims S500x64 S64x1 S500x1 where
  lhsContracting := [1]
  rhsContracting := [0]
  lhsNonContracting := [0]
  rhsNonContracting := [1]
  lhsBatch := []
  rhsBatch := []
  wf := dot_S500x64_S64x1_S500x1_1_0_0_1_n_n_wf

class Facts : Prop extends Facts₀ where

variable [Facts]
-- ==== Proof.KB.Reg0.lean ====
import proofs.«411879_j309237646134_3_alg».proof.Proof.Gen.Kernel.Launch
import proofs.«411879_j309237646134_3_alg».proof.Proof.Gen.Kernel.Skeleton
import proofs.«411879_j309237646134_3_alg».proof.Proof.Gen.Kernel.Points
import Idealize.ShloMosaic.Lib.Pipeline.Value
import Idealize.ShloMosaic.Lib.Tactic

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem hz2 : (![0, 0] : Fin 2 → ℕ) = fun _ => 0 := funext fun a => by fin_cases a <;> rfl
theorem hz1 : (![0] : Fin 1 → ℕ) = fun _ => 0 := funext fun a => by fin_cases a <;> rfl

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => k0_pay1 (iblk V c 0 t) (iblk V c 1 t) (iblk V c 2 t) (iblk V c 3 t) (iblk V c 4 t)
  Φ _ := Pipeline.ΦA spec0 c
  q _ := fullShare
  owed _ := 0

theorem A_eq (c : Dev nD) (w : Fin cfg0.W) : (dat V c).A w = V c (Pipeline.arrRef spec0 w) := rfl

theorem after_out (c : Dev nD) (t : Fin cfg0.N) :
    (dat V c).after 5 t = k0_pay1 (iblk V c 0 t) (iblk V c 1 t) (iblk V c 2 t) (iblk V c 3 t) (iblk V c 4 t) := rfl

theorem before_0 (c : Dev nD) (t : Fin cfg0.N) (d) : (dat V c).before 0 t d = iblk V c 0 t :=
  (dat V c).before_in_eq_fetched 0 rfl (fun _ => rfl) (fun _ _ _ => rfl) (fun _ => rfl) t d
theorem before_1 (c : Dev nD) (t : Fin cfg0.N) (d) : (dat V c).before 1 t d = iblk V c 1 t :=
  (dat V c).before_in_eq_fetched 1 rfl (fun _ => rfl) (fun _ _ _ => rfl) (fun _ => rfl) t d
theorem before_2 (c : Dev nD) (t : Fin cfg0.N) (d) : (dat V c).before 2 t d = iblk V c 2 t :=
  (dat V c).before_in_eq_fetched 2 rfl (fun _ => rfl) (fun _ _ _ => rfl) (fun _ => rfl) t d
theorem before_3 (c : Dev nD) (t : Fin cfg0.N) (d) : (dat V c).before 3 t d = iblk V c 3 t :=
  (dat V c).before_in_eq_fetched 3 rfl (fun _ => rfl) (fun _ _ _ => rfl) (fun _ => rfl) t d
theorem before_4 (c : Dev nD) (t : Fin cfg0.N) (d) : (dat V c).before 4 t d = iblk V c 4 t :=
  (dat V c).before_in_eq_fetched 4 rfl (fun _ => rfl) (fun _ _ _ => rfl) (fun _ => rfl) t d

set_option maxHeartbeats 1000000 in
-- Every load and the one store span their whole buffers, so the stored block is the payload of the loaded blocks.
theorem body_obligation (c : Dev nD) : BodyObligation (dat (F := F) V c) (defs₀ (F := F)) Variants.none () Set.univ := fun t => by
  rw [bigSep_W0, bigSep_W0]
  simp only [before_0, before_1, before_2, before_3, before_4]
  dsimp only [dat]
  show _ ⊢ wp _ _ _ (bodyAt0 t) _
  generalize iblk V c 0 t = x0
  generalize iblk V c 1 t = x1
  generalize iblk V c 2 t = x2
  generalize iblk V c 3 t = x3
  generalize iblk V c 4 t = x4
  unfold bodyAt0
  simp only [cc0__nfc_gc1_kernel_eq_skeleton]; unfold cc0__nfc_gc1_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  subst hf0 hf1 hf2 hf3 hf4
  sl_exec
  sl_step
  iframe HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_run_names
  rw [View.read_writes_eq_canon _ _ _ (fun y => ⟨_, .head _, View.mem_set_unit_zero hz2 inb_S2000x256_S2000x256_0_0 y⟩), View.canon_unit_zero hz2]
  simp only [View.readAt_eq_ld, View.ld_unit_zero (S := S2000x92) hz2, View.ld_unit_zero (S := S92x256) hz2, View.ld_unit_zero (S := S256) hz1,
    View.ld_unit_zero (S := S256x256) hz2, View.ld_unit_zero (S := S2000x1) hz2]

end Cert.Kernel.Reg0

end
-- ==== Proof.KB.Reg1.lean ====
import proofs.«411879_j309237646134_3_alg».proof.Proof.Gen.Kernel.Launch
import proofs.«411879_j309237646134_3_alg».proof.Proof.Gen.Kernel.Skeleton
import proofs.«411879_j309237646134_3_alg».proof.Proof.Gen.Kernel.Points
import Idealize.ShloMosaic.Lib.Pipeline.Value
import Idealize.ShloMosaic.Lib.Tactic

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def oblk (x0 : Vec F S2000x256 .f32) (x1 : Vec F S2000x1 .f32) (x2 : Vec F S256 .f32) (x3 : Vec F S256 .f32) (x4 : Vec F S256 .f32) (x5 : Vec F S256x128 .f32) : FVec F S2000x128 .f32 :=
  k1_pay1 (k1_pay2 x0 x1 x2 x3 x4) x5 x1

theorem hz2 : (![0, 0] : Fin 2 → ℕ) = fun _ => 0 := funext fun a => by fin_cases a <;> rfl
theorem hz1 : (![0] : Fin 1 → ℕ) = fun _ => 0 := funext fun a => by fin_cases a <;> rfl

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => oblk (iblk V c 0 t) (iblk V c 1 t) (iblk V c 2 t) (iblk V c 3 t) (iblk V c 4 t) (iblk V c 5 t)
  Φ _ := Pipeline.ΦA spec1 c
  q _ := fullShare
  owed _ := 0

theorem A_eq (c : Dev nD) (w : Fin cfg1.W) : (dat V c).A w = V c (Pipeline.arrRef spec1 w) := rfl

theorem after_out (c : Dev nD) (t : Fin cfg1.N) : (dat V c).after 6 t = oblk (iblk V c 0 t) (iblk V c 1 t) (iblk V c 2 t) (iblk V c 3 t) (iblk V c 4 t) (iblk V c 5 t) := rfl

theorem before_0 (c : Dev nD) (t : Fin cfg1.N) (d) : (dat V c).before 0 t d = iblk V c 0 t :=
  (dat V c).before_in_eq_fetched 0 rfl (fun _ => rfl) (fun _ _ _ => rfl) (fun _ => rfl) t d
theorem before_1 (c : Dev nD) (t : Fin cfg1.N) (d) : (dat V c).before 1 t d = iblk V c 1 t :=
  (dat V c).before_in_eq_fetched 1 rfl (fun _ => rfl) (fun _ _ _ => rfl) (fun _ => rfl) t d
theorem before_2 (c : Dev nD) (t : Fin cfg1.N) (d) : (dat V c).before 2 t d = iblk V c 2 t :=
  (dat V c).before_in_eq_fetched 2 rfl (fun _ => rfl) (fun _ _ _ => rfl) (fun _ => rfl) t d
theorem before_3 (c : Dev nD) (t : Fin cfg1.N) (d) : (dat V c).before 3 t d = iblk V c 3 t :=
  (dat V c).before_in_eq_fetched 3 rfl (fun _ => rfl) (fun _ _ _ => rfl) (fun _ => rfl) t d
theorem before_4 (c : Dev nD) (t : Fin cfg1.N) (d) : (dat V c).before 4 t d = iblk V c 4 t :=
  (dat V c).before_in_eq_fetched 4 rfl (fun _ => rfl) (fun _ _ _ => rfl) (fun _ => rfl) t d
theorem before_5 (c : Dev nD) (t : Fin cfg1.N) (d) : (dat V c).before 5 t d = iblk V c 5 t :=
  (dat V c).before_in_eq_fetched 5 rfl (fun _ => rfl) (fun _ _ _ => rfl) (fun _ => rfl) t d

set_option maxHeartbeats 1000000 in
-- Every load and the one store span their whole buffers, so the stored block is the output block of the loaded blocks.
theorem body_obligation (c : Dev nD) : BodyObligation (dat (F := F) V c) (defs₀ (F := F)) Variants.none () Set.univ := fun t => by
  rw [bigSep_W1, bigSep_W1]
  simp only [before_0, before_1, before_2, before_3, before_4, before_5]
  dsimp only [dat]
  show _ ⊢ wp _ _ _ (bodyAt1 t) _
  generalize iblk V c 0 t = x0
  generalize iblk V c 1 t = x1
  generalize iblk V c 2 t = x2
  generalize iblk V c 3 t = x3
  generalize iblk V c 4 t = x4
  generalize iblk V c 5 t = x5
  unfold bodyAt1
  simp only [cc1__ln_dense_scaled_kernel_eq_skeleton]; unfold cc1__ln_dense_scaled_kernel_skel
  simp only [k1_part1_eq_skeleton]; unfold k1_part1_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩⟩
  subst hf0 hf1 hf2 hf3 hf4 hf5
  sl_exec
  sl_step
  iframe HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_run_names
  try dsimp only
  rw [View.read_writes_eq_canon _ _ _ (fun y => ⟨_, .head _, View.mem_set_unit_zero hz2 inb_S2000x128_S2000x128_0_0 y⟩), View.canon_unit_zero hz2]
  unfold oblk
  simp only [View.readAt_eq_ld, View.ld_unit_zero (S := S2000x256) hz2, View.ld_unit_zero (S := S2000x1) hz2, View.ld_unit_zero (S := S256) hz1,
    View.ld_unit_zero (S := S256x128) hz2]

end Cert.Kernel.Reg1

end
-- ==== Proof.KB.Reg2.lean ====
import proofs.«411879_j309237646134_3_alg».proof.Proof.Gen.Kernel.Launch
import proofs.«411879_j309237646134_3_alg».proof.Proof.Gen.Kernel.Skeleton
import proofs.«411879_j309237646134_3_alg».proof.Proof.Gen.Kernel.Points
import Idealize.ShloMosaic.Lib.Pipeline.Value
import Idealize.ShloMosaic.Lib.Tactic

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def lnRows (x0 : Vec F S2000x128 .f32) (x1 : Vec F S2000x1 .f32) (x2 : Vec F S128 .f32) (x3 : Vec F S128 .f32) (x4 : Vec F S128 .f32) : FVec F S2000x128 .f32 :=
  k2_pay4 x0 x1 x2 x3 x4

def lnSign (x0 : Vec F S2000x128 .f32) (x1 : Vec F S2000x1 .f32) (x2 : Vec F S128 .f32) (x3 : Vec F S128 .f32) (x4 : Vec F S128 .f32) : IVec S2000x128 1 :=
  k2_pay5 x0 x1 x2 x3 x4

def haOf (x0 : Vec F S2000x128 .f32) (x1 : Vec F S2000x1 .f32) (x2 : Vec F S128 .f32) (x3 : Vec F S128 .f32) (x4 : Vec F S128 .f32) : Vec F S2000x128 .f32 :=
  k2_pay1 (lnRows x0 x1 x2 x3 x4) (lnSign x0 x1 x2 x3 x4) (k2_pay6 (F := F))

def stepOf (x0 : Vec F S2000x128 .f32) (x1 : Vec F S2000x1 .f32) (x2 : Vec F S128 .f32) (x3 : Vec F S128 .f32) (x4 : Vec F S128 .f32) (x5 : Vec F S2000x1 .i32) (acc : Vec F S512x128 .f32) : Vec F S512x128 .f32 :=
  k2_pay2 (lnRows x0 x1 x2 x3 x4) (lnSign x0 x1 x2 x3 x4) (k2_pay6 (F := F)) x5 acc

def haBlk (c : Dev nD) (t : Fin cfg2.N) : Vec F S2000x128 .f32 :=
  haOf (iblk V c 0 t) (iblk V c 1 t) (iblk V c 2 t) (iblk V c 3 t) (iblk V c 4 t)

def step (c : Dev nD) (t : Fin cfg2.N) (acc : Vec F S512x128 .f32) : Vec F S512x128 .f32 :=
  stepOf (iblk V c 0 t) (iblk V c 1 t) (iblk V c 2 t) (iblk V c 3 t) (iblk V c 4 t) (iblk V c 5 t) acc

def accAt (c : Dev nD) : ℕ → Vec F S512x128 .f32
  | 0 => k2_pay3 (F := F)
  | n + 1 => if h : n < cfg2.N then step V c ⟨n, h⟩ (accAt c n) else accAt c n

theorem accAt_zero (c : Dev nD) : accAt V c 0 = k2_pay3 (F := F) := rfl

theorem accAt_succ (c : Dev nD) (t : Fin cfg2.N) : accAt V c (t.val + 1) = step V c t (accAt V c t.val) := by
  obtain ⟨n, hn⟩ := t
  show accAt V c (n + 1) = _
  rw [accAt, dif_pos hn]

abbrev scratch : Memref sig .tc .vmem S512x128 .f32 := Memref.whole cc2_scratch0

def scratchAt (c : Dev nD) (n : ℕ) : sProp 𝕄 :=
  if n = 0 then iprop(∃ X, owns (c : Thread nD τ) (scratch) fullShare X) else owns (c : Thread nD τ) (scratch) fullShare (accAt V c n)

def Φ2 (c : Dev nD) (t : Fin (cfg2.N + 1)) : sProp 𝕄 :=
  iprop(Pipeline.scopedRestBut (Ix := Unit) (Name := ℕ) (U := UR sig nD τ) (Lvl := ℕ) (Val := Elt F) spec2 c [cc2_scratch0]
    ∗ scratchAt V c t.val ∗ ∃ r, prngReg c r)

theorem scopedRest_split (c : Dev nD) :
    (Pipeline.scopedRest (Ix := Unit) (Name := ℕ) (U := UR sig nD τ) (Lvl := ℕ) (Val := Elt F) spec2 c : sProp 𝕄)
      = iprop((∃ X, owns (c : Thread nD τ) (scratch) fullShare X)
          ∗ Pipeline.scopedRestBut (Ix := Unit) (Name := ℕ) (U := UR sig nD τ) (Lvl := ℕ) (Val := Elt F) spec2 c [cc2_scratch0]) := by
  rw [Pipeline.scopedRest_split_of_list spec2 c [cc2_scratch0] (by decide) (by decide)]
  simp only [bigSepL_singleton, owns_whole]
  rfl

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => haBlk V c t
    | ⟨7, _⟩ => accAt V c (t.val + 1)
  Φ t := Φ2 V c t
  q _ := fullShare
  owed _ := 0

theorem A_eq (c : Dev nD) (w : Fin cfg2.W) : (dat V c).A w = V c (Pipeline.arrRef spec2 w) := rfl

theorem after_6' (c : Dev nD) (t : Fin cfg2.N) : (dat V c).after 6 t = haBlk V c t := rfl

theorem before_0 (c : Dev nD) (t : Fin cfg2.N) (d) : (dat V c).before 0 t d = iblk V c 0 t :=
  (dat V c).before_in_eq_fetched 0 rfl (fun _ => rfl) (fun _ _ _ => rfl) (fun _ => rfl) t d
theorem before_1 (c : Dev nD) (t : Fin cfg2.N) (d) : (dat V c).before 1 t d = iblk V c 1 t :=
  (dat V c).before_in_eq_fetched 1 rfl (fun _ => rfl) (fun _ _ _ => rfl) (fun _ => rfl) t d
theorem before_2 (c : Dev nD) (t : Fin cfg2.N) (d) : (dat V c).before 2 t d = iblk V c 2 t :=
  (dat V c).before_in_eq_fetched 2 rfl (fun _ => rfl) (fun _ _ _ => rfl) (fun _ => rfl) t d
theorem before_3 (c : Dev nD) (t : Fin cfg2.N) (d) : (dat V c).before 3 t d = iblk V c 3 t :=
  (dat V c).before_in_eq_fetched 3 rfl (fun _ => rfl) (fun _ _ _ => rfl) (fun _ => rfl) t d
theorem before_4 (c : Dev nD) (t : Fin cfg2.N) (d) : (dat V c).before 4 t d = iblk V c 4 t :=
  (dat V c).before_in_eq_fetched 4 rfl (fun _ => rfl) (fun _ _ _ => rfl) (fun _ => rfl) t d
theorem before_5 (c : Dev nD) (t : Fin cfg2.N) (d) : (dat V c).before 5 t d = iblk V c 5 t :=
  (dat V c).before_in_eq_fetched 5 rfl (fun _ => rfl) (fun _ _ _ => rfl) (fun _ => rfl) t d

theorem hz2 : (![0, 0] : Fin 2 → ℕ) = fun _ => 0 := funext fun a => by fin_cases a <;> rfl
theorem hz1 : (![0] : Fin 1 → ℕ) = fun _ => 0 := funext fun a => by fin_cases a <;> rfl

abbrev cond1 (i : grid2.Coords) : Prop :=
  (Scalar.cmpi .ne (Scalar.extui (Scalar.cmpi .eq (BitVec.ofNat 32 (i 0).val) 0#32)) 0#32) = 1#1
abbrev cond2 (i : grid2.Coords) : Prop := k2_cond2 i = 1#1

theorem hcond1 : ∀ t : Fin cfg2.N, cond1 (grid2.coords t) ↔ t.val = 0 :=
  (by decide +kernel : ∀ t : Fin grid2.N, cond1 (grid2.coords t) ↔ t.val = 0)
theorem hcond2 : ∀ t : Fin cfg2.N, cond2 (grid2.coords t) ↔ t.val = 24 :=
  (by decide +kernel : ∀ t : Fin grid2.N, cond2 (grid2.coords t) ↔ t.val = 24)

set_option maxHeartbeats 1000000 in
-- The three control cases (first point, last point, any other) in one statement: the conditions say what the two accumulator buffers hold afterwards.
theorem sound_kernel (c : Dev nD) (E : Set ℕ) (i : grid2.Coords) (arg1 : Memref sig .tc .vmem S2000x128 .f32) (harg1 : arg1.IsWhole) (arg2 : Memref sig .tc .vmem S2000x1 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S2000x1 .i32) (harg6 : arg6.IsWhole) (arg7 : Memref sig .tc .vmem S2000x128 .f32) (harg7 : arg7.IsWhole) (arg8 : Memref sig .tc .vmem S512x128 .f32) (harg8 : arg8.IsWhole) (arg9 : Memref sig .tc .vmem S512x128 .f32) (harg9 : arg9.IsWhole)
    (h12 : ¬(cond1 i ∧ cond2 i)) (x0 : Vec F S2000x128 .f32) (x1 : Vec F S2000x1 .f32) (x2 : Vec F S128 .f32) (x3 : Vec F S128 .f32) (x4 : Vec F S128 .f32) (x5 : Vec F S2000x1 .i32) (d8 a9 : Vec F S512x128 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5
        ∗ (∃ d, owns c arg7 fullShare d) ∗ owns c arg8 fullShare d8 ∗ owns c arg9 fullShare a9
        ∗ (iprop(owns c arg1 fullShare x0 ∗ owns c arg2 fullShare x1 ∗ owns c arg3 fullShare x2 ∗ owns c arg4 fullShare x3 ∗ owns c arg5 fullShare x4 ∗ owns c arg6 fullShare x5
            ∗ owns c arg7 fullShare (haOf x0 x1 x2 x3 x4)
            ∗ owns c arg8 fullShare (if cond2 i then stepOf x0 x1 x2 x3 x4 x5 (if cond1 i then k2_pay3 else a9) else d8)
            ∗ owns c arg9 fullShare (stepOf x0 x1 x2 x3 x4 x5 (if cond1 i then k2_pay3 else a9))) -∗ K ⟨⟩))
      ⊢ wp frame (wpE (defs₀ (F := F)) Variants.none c none) E (cc2__ln_l2_pool_kernel i arg1 harg1 arg2 harg2 arg3 harg3 arg4 harg4 arg5 harg5 arg6 harg6 arg7 harg7 arg8 harg8 arg9 harg9) K := by
  simp only [cc2__ln_l2_pool_kernel_eq_skeleton]; unfold cc2__ln_l2_pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  subst hf0 hf1 hf2 hf3 hf4 hf5 hf7 hf8
  by_cases hc1 : cond1 i <;> by_cases hc2 : cond2 i
  · exact absurd ⟨hc1, hc2⟩ h12
  all_goals
    first | rw [if_pos hc1] | rw [if_neg hc1]
    first | rw [if_pos hc2] | rw [if_neg hc2]
    sl_exec (disch := first | exact hc1 | exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]; iexists _; isplitr; swap; iexact H6; ipureintro; rotate_left
    isplitl [H7]; iexists _; isplitr; swap; iexact H7; ipureintro; rotate_left
    iexists _; isplitr; swap; iexact H8; ipureintro
    all_goals first
      | (sl_unfold_run_names
         rw [View.read_writes_eq_canon _ _ _ (fun y => ⟨_, .head _, by
           apply View.mem_set_unit_zero hz2
           first | exact inb_S2000x128_S2000x128_0_0 | exact inb_S512x128_S512x128_0_0⟩), View.canon_cons_unit_zero hz2]
         simp only [haOf, stepOf, lnRows, lnSign, View.readAt_eq_ld, View.ld_unit_zero (S := S2000x128) hz2, View.ld_unit_zero (S := S2000x1) hz2,
           View.ld_unit_zero (S := S128) hz1, View.ld_unit_zero (S := S512x128) hz2, View.readCov_unit_zero (S := S512x128) _ hz2])
      | rfl

theorem idle7 (t : Fin cfg2.N) (hc2 : ¬ cond2 (grid2.coords t)) : idle2 7 (grid2.coords t) = true := by
  show (!(k2_cond2 (grid2.coords t) == 1#1)) = true
  rw [Bool.not_eq_true', beq_eq_false_iff_ne]; exact hc2
theorem live7 (t : Fin cfg2.N) (hc2 : cond2 (grid2.coords t)) : idle2 7 (grid2.coords t) = false := by
  show (!(k2_cond2 (grid2.coords t) == 1#1)) = false
  rw [Bool.not_eq_false', beq_iff_eq]; exact hc2
theorem noFlush7 (t : Fin cfg2.N) (h : t.val ≠ 24) : (win2 7).flush t = false :=
  Bool.eq_false_iff.mpr fun hf => by
    have hN : t.val < 25 := lt_of_lt_of_eq t.isLt N_2
    have := (flush2_7 t).mp hf; omega

theorem body_obligation (c : Dev nD) : BodyObligation (dat (F := F) V c) (defs₀ (F := F)) Variants.none () Set.univ := fun t => by
  rw [bigSep_W2, bigSep_W2, show (dat V c).owesAt () t.succ = (dat V c).owesAt () t.castSucc from rfl]
  simp only [before_0, before_1, before_2, before_3, before_4, before_5]
  generalize (dat V c).before 6 t = b6
  generalize (dat V c).before 7 t = b7
  dsimp only [dat]
  show _ ⊢ wp _ _ _ (bodyAt2 t) _
  unfold Φ2 scratchAt haBlk
  rw [show t.succ.val = t.val + 1 from rfl, show t.castSucc.val = t.val from rfl, if_neg (Nat.succ_ne_zero _), accAt_succ]
  unfold step
  have hN : t.val < 25 := lt_of_lt_of_eq t.isLt N_2
  have h1 := hcond1 t
  have h2 := hcond2 t
  have h12 : ¬(cond1 (grid2.coords t) ∧ cond2 (grid2.coords t)) := fun h => by have := h1.mp h.1; have := h2.mp h.2; omega
  by_cases h0 : t.val = 0
  · have hc1 := h1.mpr h0
    have hc2 : ¬ cond2 (grid2.coords t) := fun h => by have := h2.mp h; omega
    simp only [idle7 t hc2, noFlush7 t (by omega)]
    rw [if_pos h0, show accAt V c t.val = k2_pay3 (F := F) from by rw [h0]; rfl]
    iintro ⟨⟨Hrest, ⟨%X, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel c Set.univ _ _ _ _ _ _ _ _ _ _ _ _ _ _ _ _ _ _ _ h12 (iblk V c 0 t) (iblk V c 1 t) (iblk V c 2 t) (iblk V c 3 t) (iblk V c 4 t) (iblk V c 5 t) (b7 d7) X _)
    rw [if_pos hc1, if_neg hc2]
    iframe H0 H1 H2 H3 H4 H5 H7 HS
    isplitl [H6]; · iexists _; iexact H6
    iintro ⟨H0, H1, H2, H3, H4, H5, H6, H7, HS⟩
    iframe
    iexists d7; iexact H7
  · have hc1 : ¬ cond1 (grid2.coords t) := fun h => h0 (h1.mp h)
    rw [if_neg h0]
    iintro ⟨⟨Hrest, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel c Set.univ _ _ _ _ _ _ _ _ _ _ _ _ _ _ _ _ _ _ _ h12 (iblk V c 0 t) (iblk V c 1 t) (iblk V c 2 t) (iblk V c 3 t) (iblk V c 4 t) (iblk V c 5 t) (b7 d7) (accAt V c t.val) _)
    rw [if_neg hc1]
    iframe H0 H1 H2 H3 H4 H5 H7 HS
    isplitl [H6]; · iexists _; iexact H6
    iintro ⟨H0, H1, H2, H3, H4, H5, H6, H7, HS⟩
    by_cases h24 : t.val = 24
    · have hc2 := h2.mpr h24
      simp only [live7 t hc2]
      rw [if_pos hc2]
      iframe
    · have hc2 : ¬ cond2 (grid2.coords t) := fun h => h24 (h2.mp h)
      simp only [idle7 t hc2, noFlush7 t h24]
      rw [if_neg hc2]
      iframe
      iexists d7; iexact H7

theorem hin (c : Dev nD) (Pf : sProp 𝕄) :
    iprop((∃ r, prngReg c r) ∗ Pf ∗ Pipeline.scopedRest (Ix := Unit) (Name := ℕ) (U := UR sig nD τ) (Lvl := ℕ) (Val := Elt F) spec2 c)
      ⊢ (dat V c).Φ 0 := by
  rw [scopedRest_split]; dsimp only [dat, Φ2, scratchAt]
  rw [if_pos (show ((0 : Fin (cfg2.N + 1)).val = 0) from rfl)]
  iintro ⟨Hp, -, Hs, Hr⟩
  iframe

theorem hout (c : Dev nD) :
    (dat V c).Φ (Fin.last cfg2.N)
      ⊢ iprop((∃ r, prngReg c r) ∗ Pipeline.ownSems0 (Ix := Unit) (Name := ℕ) (U := UR sig nD τ) (Lvl := ℕ) (Val := Elt F) (τ := τ) (fun k : PEmpty => (k.elim : SemLoc sig)) c
        ∗ Pipeline.scopedRest (Ix := Unit) (Name := ℕ) (U := UR sig nD τ) (Lvl := ℕ) (Val := Elt F) spec2 c) := by
  rw [scopedRest_split, Pipeline.ownSems0_none]; dsimp only [dat, Φ2, scratchAt]
  rw [if_neg (by rw [Fin.val_last]; decide)]
  iintro ⟨Hr, Hs, Hp⟩
  iframe Hp Hr
  isplitr; · iempintro
  iexists _; iexact Hs

abbrev tLast : Fin cfg2.N := ⟨24, by decide⟩

theorem arrAt_early (c : Dev nD) : ∀ n, n ≤ 24 → (dat V c).arrAt 7 n = (dat V c).A 7
  | 0, _ => rfl
  | n + 1, h => by
    have hn : n < cfg2.N := lt_of_lt_of_eq (by omega : n < 25) N_2.symm
    rw [show n + 1 = (⟨n, hn⟩ : Fin cfg2.N).val + 1 from rfl, Dat.arrAt_succ,
      if_neg (by intro hf; have := (flush2_7 ⟨n, hn⟩).mp hf; dsimp only at this; omega)]
    exact arrAt_early c n (by omega)

-- The second result after the last point: its entry contents with its one block overwritten by the accumulation over all 25 points.
theorem arrAt_pooled (c : Dev nD) :
    (dat V c).arrAt 7 cfg2.N
      = ((cfg2.win 7).blk tLast).view.write (Elt F) (V c (Pipeline.arrRef spec2 7)) (accAt V c 25) Finset.univ := by
  rw [show cfg2.N = tLast.val + 1 from N_2, Dat.arrAt_succ, if_pos ((flush2_7 tLast).mpr rfl), arrAt_early V c 24 le_rfl]
  rfl

end Cert.Kernel.Reg2

end
-- ==== Proof.KB.Run.lean ====
import proofs.«411879_j309237646134_3_alg».proof.Proof.Gen.Kernel.Regions
import proofs.«411879_j309237646134_3_alg».proof.Proof.KB.Reg0
import proofs.«411879_j309237646134_3_alg».proof.Proof.KB.Reg1
import proofs.«411879_j309237646134_3_alg».proof.Proof.KB.Reg2
import Idealize.ShloMosaic.Lib.Pipeline.RegionsLoop

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

abbrev atRefs (W : Dev nD → Valuation τ sig (Elt F)) : (c : Dev nD) → (b : Ref sig .tc) → Buf (Elt F) ((c : Thread nD τ).loc b) :=
  fun c b => W c b

abbrev base (c : Dev nD) : (r : Ref sig .tc) → Buf (Elt F) ((c : Thread nD τ).loc r) := fun r => m ((c : Thread nD τ).loc r)

def outs4 : Gen.Outs (F := F) := fun _ r c =>
  Function.update (base m c) main_v18 ((Reg0.dat (atRefs (V3 m)) c).arrAt 5 cfg0.N) r

def outs6 : Gen.Outs (F := F) := fun J r c =>
  match J with
  | 4 => outs4 m 4 r c
  | _ => Function.update (base m c) main_v29 ((Reg1.dat (atRefs (V5 m (outs4 m))) c).arrAt 6 cfg1.N) r

-- What each region leaves in its outputs; a region's entry valuation reads the earlier regions' outputs only.
def outs : Gen.Outs (F := F) := fun J r c =>
  match J with
  | 4 => outs4 m 4 r c
  | 6 => outs6 m 6 r c
  | _ => Function.update (Function.update (base m c) main_v41_0 ((Reg2.dat (atRefs (V7 m (outs6 m))) c).arrAt 6 cfg2.N))
      main_v41_1 ((Reg2.dat (atRefs (V7 m (outs6 m))) c).arrAt 7 cfg2.N) r

theorem outs4_eq (c : Dev nD) : outs m 4 main_v18 c = (Reg0.dat (atRefs (V3 m)) c).arrAt 5 cfg0.N :=
  Function.update_self main_v18 _ (base m c)
theorem outs6_eq (c : Dev nD) : outs m 6 main_v29 c = (Reg1.dat (atRefs (V5 m (outs m))) c).arrAt 6 cfg1.N :=
  Function.update_self main_v29 _ (base m c)
theorem outs8_0_eq (c : Dev nD) : outs m 8 main_v41_0 c = (Reg2.dat (atRefs (V7 m (outs m))) c).arrAt 6 cfg2.N :=
  (Function.update_of_ne (by decide) _ (Function.update (base m c) main_v41_0 _)).trans (Function.update_self main_v41_0 _ (base m c))
theorem outs8_1_eq (c : Dev nD) : outs m 8 main_v41_1 c = (Reg2.dat (atRefs (V7 m (outs m))) c).arrAt 7 cfg2.N :=
  Function.update_self main_v41_1 _ (Function.update (base m c) main_v41_0 _)

def pdats : (p : Fin 3) → (c : Dev nD) → Dat τ (Elt F) Unit ℕ (UR sig nD τ) ℕ (cfgs p) c
  | ⟨0, _⟩ => Reg0.dat (atRefs (V3 m))
  | ⟨1, _⟩ => Reg1.dat (atRefs (V5 m (outs m)))
  | ⟨2, _⟩ => Reg2.dat (atRefs (V7 m (outs m)))

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev E : Fin 4 → Dev nD → sProp 𝕄 := fun _ c => R c

set_option backward.isDefEq.respectTransparency.types false in
-- A region that changes its output windows `O` only: off them the exit valuation `Vo` is the entry valuation `Vi`.
def reg (p : Fin 3) (kit : Pipeline.LaunchFacts (nD := nD) (τ := τ) cfgs p) (Vi Vo : Dev nD → Valuation τ sig (Elt F))
    (O : List (Fin (cfgs p).W))
    (hbody : ∀ c, BodyObligation (pdats m p c) (defs₀ (F := F)) 𝒱₀ () Set.univ)
    (h0 : ∀ c t, (pdats m p c).owed t = 0) (hq : ∀ c w, (pdats m p c).q w = fullShare)
    (hr : ∀ c, (pdats m p c).recorded 0 = Set.univ)
    (hA : ∀ c w, (pdats m p c).A w = Vi c (Pipeline.arrRef (cfgs p).spec w))
    (hio : ∀ w, w ∉ O → ((cfgs p).win w).isOut = false)
    (hFo : ∀ c, O.Forall fun w => (pdats m p c).arrAt w (cfgs p).N = Vo c (Pipeline.arrRef (cfgs p).spec w))
    (hoff : ∀ c (r : Ref sig .tc), r ∉ O.map (Pipeline.arrRef (cfgs p).spec) → Vo c r = Vi c r)
    (hin : ∀ c, iprop((∃ r, prngReg c r) ∗ Pipeline.prefHeld (pcfgs (F := F) p).pre c (fun _ => fullShare) (adm p).1
      ∗ Pipeline.scopedRest (cfgs p).spec c) ⊢ (pdats m p c).Φ 0)
    (hout : ∀ c, (pdats m p c).Φ (Fin.last (cfgs p).N)
      ⊢ iprop((∃ r, prngReg c r) ∗ Pipeline.ownSems0 (fun k : PEmpty => (k.elim : SemLoc sig)) c ∗ Pipeline.scopedRest (cfgs p).spec c)) :
    Pipeline.RegionSeg (pcfgs (F := F)) adm (pdats m) () defs₀ 𝒱₀ L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p h0
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c (atRefs Vi c)
  hentry c := by
    have hsplit := Pipeline.arrays_of_unscopedBufs (p := p) (pcfgs (F := F)) adm (pdats m) kit.win kit.arr_whole c
      ((pdats m p c).share_full (hq c)) (atRefs Vi c) (hA c)
    rw [Pipeline.unscopedBufs_held] at hsplit
    rw [Pipeline.ownSems0_none]; unfold Pipeline.Dat.owesAt Pipeline.owesWithin; rw [h0 c 0]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl ((hr c).symm ▸ trivial)
      iexact HO
    isplitl [Hp]; · iexact Hp
    iexact Hrest
  hin := hin
  hout := hout
  hexit c := by
    have hjoin := Pipeline.unscopedBufs_of_arrays (p := p) (pcfgs (F := F)) adm (Ix := Unit) (Name := ℕ) (U := UR sig nD τ) (Lvl := ℕ)
      kit.win kit.arr_whole c (pdats m) ((pdats m p c).share_full (hq c))
      (atRefs Vi c) (atRefs Vo c) ((pdats m p c).arrAt · (cfgs p).N)
      (fun w => if h : w ∈ O then List.forall_iff_forall_mem.1 (hFo c) w h else
        ((pdats m p c).arrAt_in w (hio w h) _).trans ((hA c w).trans (hoff c _ fun h' =>
          let ⟨_, hw, e⟩ := List.mem_map.1 h'; h (kit.win.arr_inj e ▸ hw)).symm))
      fun b hb => hoff c b fun h => let ⟨w, _, e⟩ := List.mem_map.1 h; hb (Finset.mem_image.2 ⟨w, Finset.mem_univ _, e⟩)
    rw [Pipeline.unscopedBufs_held] at hjoin
    unfold Pipeline.Dat.owesAt Pipeline.owesWithin; rw [h0 c]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

theorem hinA {gr W : ℕ} (spec : Fin W → Pipeline.WinSpec sig gr) (c : Dev nD) (Pf : sProp 𝕄) :
    iprop((∃ r, prngReg c r) ∗ Pf ∗ Pipeline.scopedRest spec c) ⊢ Pipeline.ΦA (U := UR sig nD τ) spec c := by
  unfold Pipeline.ΦA; iintro ⟨Hp, -, Hr⟩
  isplitl [Hr]; · iexact Hr
  iexact Hp

theorem houtA {gr W : ℕ} (spec : Fin W → Pipeline.WinSpec sig gr) (c : Dev nD) :
    Pipeline.ΦA (U := UR sig nD τ) spec c
      ⊢ (iprop((∃ r, prngReg c r) ∗ Pipeline.ownSems0 (fun k : PEmpty => (k.elim : SemLoc sig)) c ∗ Pipeline.scopedRest spec c) : sProp 𝕄) := by
  rw [Pipeline.ownSems0_none]; unfold Pipeline.ΦA; iintro ⟨Hr, Hp⟩
  isplitl [Hp]; · iexact Hp
  isplitr; · iempintro
  iexact Hr

def reg0 := reg m 0 launch0 (V3 m) (V4 m (outs m)) [5] (Reg0.body_obligation _) (fun _ _ => rfl) (fun _ _ => rfl) (fun _ => rfl)
  (Reg0.A_eq _) (by decide) (fun c => ((Function.update_self (main_v18 : DevRef τ sig) _ (V3 m c)).trans (outs4_eq m c)).symm)
  (V4_of m (outs m)) (fun c => hinA spec0 c _) (houtA spec0)

def reg1 := reg m 1 launch1 (V5 m (outs m)) (V6 m (outs m)) [6] (Reg1.body_obligation _) (fun _ _ => rfl) (fun _ _ => rfl) (fun _ => rfl)
  (Reg1.A_eq _) (by decide) (fun c => ((Function.update_self (main_v29 : DevRef τ sig) _ (V5 m (outs m) c)).trans (outs6_eq m c)).symm)
  (V6_of m (outs m)) (fun c => hinA spec1 c _) (houtA spec1)

def reg2 := reg m 2 launch2 (V7 m (outs m)) (V8 m (outs m)) [6, 7] (Reg2.body_obligation _) (fun _ _ => rfl) (fun _ _ => rfl) (fun _ => rfl)
  (Reg2.A_eq _) (by decide)
  (fun c => ⟨((Function.update_of_ne (StableHlo.devRef_ne_of_ne (by decide)) _ _).trans
      ((Function.update_self (main_v41_0 : DevRef τ sig) _ (V7 m (outs m) c)).trans (outs8_0_eq m c))).symm,
    ((Function.update_self (main_v41_1 : DevRef τ sig) _ (Function.update (V7 m (outs m) c) (main_v41_0 : DevRef τ sig) _)).trans
      (outs8_1_eq m c)).symm⟩)
  (V8_of m (outs m)) (fun c => Reg2.hin _ c _) (Reg2.hout _)

abbrev u₀ : UR sig nD τ := initOf (Pipeline.cells cfgs cellOf_inj) (Pipeline.launchToks cfgs cellOf_inj)

theorem hu₀ : (ownU u₀ : sProp 𝕄) ⊢ |={Set.univ}=> iprop(BI.own (emb₁ u₀) ∗ bigSep Finset.univ fun _ : Dev nD => (BI.emp : sProp 𝕄)) := by
  rw [BI.bigSep_emp_const]; iintro Hu; imodintro
  isplitl [Hu]
  · iapply (show (ownU u₀ : sProp 𝕄) ⊢ BI.own (emb₁ u₀) from .rfl)
    iexact Hu
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE3 (c : Dev nD) : E (F := F) 3 c ⊢ (iprop(∃ W, owes (c : Thread nD τ) (0 : CellTallies nD τ sig Unit) W) : sProp 𝕄) := by
  iintro ⟨-, HO⟩; iexact HO

set_option backward.isDefEq.respectTransparency.types false in
-- The conditional frame at the three regions' records: @main runs to its end and every argument ends as launched.
def frame (ρ : Dev nD → PrngReg) :=
  Gen.frame_cond m emb₁ () 𝒱₀ L lv (fun _ _ => rfl) ρ (outs m) (pdats m) (O₀ := 0) (G := fun _ => BI.emp) (u₀ := u₀) (hu₀ := hu₀)
    (E := E) (hE0 := hE0 ρ) (hE3 := hE3)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)

end Cert.Kernel.Run

end
-- ==== Proof.KI.Reg0.lean ====
import proofs.«411879_j309237646134_3_alg».proof.Proof.Gen.KernelIdeal.Launch
import proofs.«411879_j309237646134_3_alg».proof.Proof.Gen.KernelIdeal.Skeleton
import proofs.«411879_j309237646134_3_alg».proof.Proof.Gen.KernelIdeal.Points
import Idealize.ShloMosaic.Lib.Pipeline.Value
import Idealize.ShloMosaic.Lib.Tactic

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem hz2 : (![0, 0] : Fin 2 → ℕ) = fun _ => 0 := funext fun a => by fin_cases a <;> rfl
theorem hz1 : (![0] : Fin 1 → ℕ) = fun _ => 0 := funext fun a => by fin_cases a <;> rfl

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => k0_pay1 (iblk V c 0 t) (iblk V c 1 t) (iblk V c 2 t) (iblk V c 3 t) (iblk V c 4 t)
  Φ _ := Pipeline.ΦA spec0 c
  q _ := fullShare
  owed _ := 0

theorem A_eq (c : Dev nD) (w : Fin cfg0.W) : (dat V c).A w = V c (Pipeline.arrRef spec0 w) := rfl

theorem after_out (c : Dev nD) (t : Fin cfg0.N) :
    (dat V c).after 5 t = k0_pay1 (iblk V c 0 t) (iblk V c 1 t) (iblk V c 2 t) (iblk V c 3 t) (iblk V c 4 t) := rfl

theorem before_0 (c : Dev nD) (t : Fin cfg0.N) (d) : (dat V c).before 0 t d = iblk V c 0 t :=
  (dat V c).before_in_eq_fetched 0 rfl (fun _ => rfl) (fun _ _ _ => rfl) (fun _ => rfl) t d
theorem before_1 (c : Dev nD) (t : Fin cfg0.N) (d) : (dat V c).before 1 t d = iblk V c 1 t :=
  (dat V c).before_in_eq_fetched 1 rfl (fun _ => rfl) (fun _ _ _ => rfl) (fun _ => rfl) t d
theorem before_2 (c : Dev nD) (t : Fin cfg0.N) (d) : (dat V c).before 2 t d = iblk V c 2 t :=
  (dat V c).before_in_eq_fetched 2 rfl (fun _ => rfl) (fun _ _ _ => rfl) (fun _ => rfl) t d
theorem before_3 (c : Dev nD) (t : Fin cfg0.N) (d) : (dat V c).before 3 t d = iblk V c 3 t :=
  (dat V c).before_in_eq_fetched 3 rfl (fun _ => rfl) (fun _ _ _ => rfl) (fun _ => rfl) t d
theorem before_4 (c : Dev nD) (t : Fin cfg0.N) (d) : (dat V c).before 4 t d = iblk V c 4 t :=
  (dat V c).before_in_eq_fetched 4 rfl (fun _ => rfl) (fun _ _ _ => rfl) (fun _ => rfl) t d

set_option maxHeartbeats 1000000 in
-- Every load and the one store span their whole buffers, so the stored block is the payload of the loaded blocks.
theorem body_obligation (c : Dev nD) : BodyObligation (dat (F := F) V c) (defs₀ (F := F)) Variants.none () Set.univ := fun t => by
  rw [bigSep_W0, bigSep_W0]
  simp only [before_0, before_1, before_2, before_3, before_4]
  dsimp only [dat]
  show _ ⊢ wp _ _ _ (bodyAt0 t) _
  generalize iblk V c 0 t = x0
  generalize iblk V c 1 t = x1
  generalize iblk V c 2 t = x2
  generalize iblk V c 3 t = x3
  generalize iblk V c 4 t = x4
  unfold bodyAt0
  simp only [cc0__nfc_gc1_kernel_eq_skeleton]; unfold cc0__nfc_gc1_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  subst hf0 hf1 hf2 hf3 hf4
  sl_exec
  sl_step
  iframe HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_run_names
  rw [View.read_writes_eq_canon _ _ _ (fun y => ⟨_, .head _, View.mem_set_unit_zero hz2 inb_S2000x256_S2000x256_0_0 y⟩), View.canon_unit_zero hz2]
  simp only [View.readAt_eq_ld, View.ld_unit_zero (S := S2000x92) hz2, View.ld_unit_zero (S := S92x256) hz2, View.ld_unit_zero (S := S256) hz1,
    View.ld_unit_zero (S := S256x256) hz2, View.ld_unit_zero (S := S2000x1) hz2]

end Cert.KernelIdeal.Reg0

end
-- ==== Proof.KI.Reg1.lean ====
import proofs.«411879_j309237646134_3_alg».proof.Proof.Gen.KernelIdeal.Launch
import proofs.«411879_j309237646134_3_alg».proof.Proof.Gen.KernelIdeal.Skeleton
import proofs.«411879_j309237646134_3_alg».proof.Proof.Gen.KernelIdeal.Points
import Idealize.ShloMosaic.Lib.Pipeline.Value
import Idealize.ShloMosaic.Lib.Tactic

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def oblk (x0 : Vec F S2000x256 .f32) (x1 : Vec F S2000x1 .f32) (x2 : Vec F S256 .f32) (x3 : Vec F S256 .f32) (x4 : Vec F S256 .f32) (x5 : Vec F S256x128 .f32) : FVec F S2000x128 .f32 :=
  k1_pay1 (k1_pay2 x0 x1 x2 x3 x4) x5 x1

theorem hz2 : (![0, 0] : Fin 2 → ℕ) = fun _ => 0 := funext fun a => by fin_cases a <;> rfl
theorem hz1 : (![0] : Fin 1 → ℕ) = fun _ => 0 := funext fun a => by fin_cases a <;> rfl

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => oblk (iblk V c 0 t) (iblk V c 1 t) (iblk V c 2 t) (iblk V c 3 t) (iblk V c 4 t) (iblk V c 5 t)
  Φ _ := Pipeline.ΦA spec1 c
  q _ := fullShare
  owed _ := 0

theorem A_eq (c : Dev nD) (w : Fin cfg1.W) : (dat V c).A w = V c (Pipeline.arrRef spec1 w) := rfl

theorem after_out (c : Dev nD) (t : Fin cfg1.N) : (dat V c).after 6 t = oblk (iblk V c 0 t) (iblk V c 1 t) (iblk V c 2 t) (iblk V c 3 t) (iblk V c 4 t) (iblk V c 5 t) := rfl

theorem before_0 (c : Dev nD) (t : Fin cfg1.N) (d) : (dat V c).before 0 t d = iblk V c 0 t :=
  (dat V c).before_in_eq_fetched 0 rfl (fun _ => rfl) (fun _ _ _ => rfl) (fun _ => rfl) t d
theorem before_1 (c : Dev nD) (t : Fin cfg1.N) (d) : (dat V c).before 1 t d = iblk V c 1 t :=
  (dat V c).before_in_eq_fetched 1 rfl (fun _ => rfl) (fun _ _ _ => rfl) (fun _ => rfl) t d
theorem before_2 (c : Dev nD) (t : Fin cfg1.N) (d) : (dat V c).before 2 t d = iblk V c 2 t :=
  (dat V c).before_in_eq_fetched 2 rfl (fun _ => rfl) (fun _ _ _ => rfl) (fun _ => rfl) t d
theorem before_3 (c : Dev nD) (t : Fin cfg1.N) (d) : (dat V c).before 3 t d = iblk V c 3 t :=
  (dat V c).before_in_eq_fetched 3 rfl (fun _ => rfl) (fun _ _ _ => rfl) (fun _ => rfl) t d
theorem before_4 (c : Dev nD) (t : Fin cfg1.N) (d) : (dat V c).before 4 t d = iblk V c 4 t :=
  (dat V c).before_in_eq_fetched 4 rfl (fun _ => rfl) (fun _ _ _ => rfl) (fun _ => rfl) t d
theorem before_5 (c : Dev nD) (t : Fin cfg1.N) (d) : (dat V c).before 5 t d = iblk V c 5 t :=
  (dat V c).before_in_eq_fetched 5 rfl (fun _ => rfl) (fun _ _ _ => rfl) (fun _ => rfl) t d

set_option maxHeartbeats 1000000 in
-- Every load and the one store span their whole buffers, so the stored block is the output block of the loaded blocks.
theorem body_obligation (c : Dev nD) : BodyObligation (dat (F := F) V c) (defs₀ (F := F)) Variants.none () Set.univ := fun t => by
  rw [bigSep_W1, bigSep_W1]
  simp only [before_0, before_1, before_2, before_3, before_4, before_5]
  dsimp only [dat]
  show _ ⊢ wp _ _ _ (bodyAt1 t) _
  generalize iblk V c 0 t = x0
  generalize iblk V c 1 t = x1
  generalize iblk V c 2 t = x2
  generalize iblk V c 3 t = x3
  generalize iblk V c 4 t = x4
  generalize iblk V c 5 t = x5
  unfold bodyAt1
  simp only [cc1__ln_dense_scaled_kernel_eq_skeleton]; unfold cc1__ln_dense_scaled_kernel_skel
  simp only [k1_part1_eq_skeleton]; unfold k1_part1_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩⟩
  subst hf0 hf1 hf2 hf3 hf4 hf5
  sl_exec
  sl_step
  iframe HΦ
  isplitl [Ho]; · iexact Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_run_names
  try dsimp only
  rw [View.read_writes_eq_canon _ _ _ (fun y => ⟨_, .head _, View.mem_set_unit_zero hz2 inb_S2000x128_S2000x128_0_0 y⟩), View.canon_unit_zero hz2]
  unfold oblk
  simp only [View.readAt_eq_ld, View.ld_unit_zero (S := S2000x256) hz2, View.ld_unit_zero (S := S2000x1) hz2, View.ld_unit_zero (S := S256) hz1,
    View.ld_unit_zero (S := S256x128) hz2]

end Cert.KernelIdeal.Reg1

end
-- ==== Proof.KI.Reg2.lean ====
import proofs.«411879_j309237646134_3_alg».proof.Proof.Gen.KernelIdeal.Launch
import proofs.«411879_j309237646134_3_alg».proof.Proof.Gen.KernelIdeal.Skeleton
import proofs.«411879_j309237646134_3_alg».proof.Proof.Gen.KernelIdeal.Points
import Idealize.ShloMosaic.Lib.Pipeline.Value
import Idealize.ShloMosaic.Lib.Tactic

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def lnRows (x0 : Vec F S2000x128 .f32) (x1 : Vec F S2000x1 .f32) (x2 : Vec F S128 .f32) (x3 : Vec F S128 .f32) (x4 : Vec F S128 .f32) : FVec F S2000x128 .f32 :=
  k2_pay4 x0 x1 x2 x3 x4

def lnSign (x0 : Vec F S2000x128 .f32) (x1 : Vec F S2000x1 .f32) (x2 : Vec F S128 .f32) (x3 : Vec F S128 .f32) (x4 : Vec F S128 .f32) : IVec S2000x128 1 :=
  k2_pay5 x0 x1 x2 x3 x4

def haOf (x0 : Vec F S2000x128 .f32) (x1 : Vec F S2000x1 .f32) (x2 : Vec F S128 .f32) (x3 : Vec F S128 .f32) (x4 : Vec F S128 .f32) : Vec F S2000x128 .f32 :=
  k2_pay1 (lnRows x0 x1 x2 x3 x4) (lnSign x0 x1 x2 x3 x4) (k2_pay6 (F := F))

def stepOf (x0 : Vec F S2000x128 .f32) (x1 : Vec F S2000x1 .f32) (x2 : Vec F S128 .f32) (x3 : Vec F S128 .f32) (x4 : Vec F S128 .f32) (x5 : Vec F S2000x1 .i32) (acc : Vec F S512x128 .f32) : Vec F S512x128 .f32 :=
  k2_pay2 (lnRows x0 x1 x2 x3 x4) (lnSign x0 x1 x2 x3 x4) (k2_pay6 (F := F)) x5 acc

def haBlk (c : Dev nD) (t : Fin cfg2.N) : Vec F S2000x128 .f32 :=
  haOf (iblk V c 0 t) (iblk V c 1 t) (iblk V c 2 t) (iblk V c 3 t) (iblk V c 4 t)

def step (c : Dev nD) (t : Fin cfg2.N) (acc : Vec F S512x128 .f32) : Vec F S512x128 .f32 :=
  stepOf (iblk V c 0 t) (iblk V c 1 t) (iblk V c 2 t) (iblk V c 3 t) (iblk V c 4 t) (iblk V c 5 t) acc

def accAt (c : Dev nD) : ℕ → Vec F S512x128 .f32
  | 0 => k2_pay3 (F := F)
  | n + 1 => if h : n < cfg2.N then step V c ⟨n, h⟩ (accAt c n) else accAt c n

theorem accAt_zero (c : Dev nD) : accAt V c 0 = k2_pay3 (F := F) := rfl

theorem accAt_succ (c : Dev nD) (t : Fin cfg2.N) : accAt V c (t.val + 1) = step V c t (accAt V c t.val) := by
  obtain ⟨n, hn⟩ := t
  show accAt V c (n + 1) = _
  rw [accAt, dif_pos hn]

abbrev scratch : Memref sig .tc .vmem S512x128 .f32 := Memref.whole cc2_scratch0

def scratchAt (c : Dev nD) (n : ℕ) : sProp 𝕄 :=
  if n = 0 then iprop(∃ X, owns (c : Thread nD τ) (scratch) fullShare X) else owns (c : Thread nD τ) (scratch) fullShare (accAt V c n)

def Φ2 (c : Dev nD) (t : Fin (cfg2.N + 1)) : sProp 𝕄 :=
  iprop(Pipeline.scopedRestBut (Ix := Unit) (Name := ℕ) (U := UR sig nD τ) (Lvl := ℕ) (Val := Elt F) spec2 c [cc2_scratch0]
    ∗ scratchAt V c t.val ∗ ∃ r, prngReg c r)

theorem scopedRest_split (c : Dev nD) :
    (Pipeline.scopedRest (Ix := Unit) (Name := ℕ) (U := UR sig nD τ) (Lvl := ℕ) (Val := Elt F) spec2 c : sProp 𝕄)
      = iprop((∃ X, owns (c : Thread nD τ) (scratch) fullShare X)
          ∗ Pipeline.scopedRestBut (Ix := Unit) (Name := ℕ) (U := UR sig nD τ) (Lvl := ℕ) (Val := Elt F) spec2 c [cc2_scratch0]) := by
  rw [Pipeline.scopedRest_split_of_list spec2 c [cc2_scratch0] (by decide) (by decide)]
  simp only [bigSepL_singleton, owns_whole]
  rfl

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => haBlk V c t
    | ⟨7, _⟩ => accAt V c (t.val + 1)
  Φ t := Φ2 V c t
  q _ := fullShare
  owed _ := 0

theorem A_eq (c : Dev nD) (w : Fin cfg2.W) : (dat V c).A w = V c (Pipeline.arrRef spec2 w) := rfl

theorem after_6' (c : Dev nD) (t : Fin cfg2.N) : (dat V c).after 6 t = haBlk V c t := rfl

theorem before_0 (c : Dev nD) (t : Fin cfg2.N) (d) : (dat V c).before 0 t d = iblk V c 0 t :=
  (dat V c).before_in_eq_fetched 0 rfl (fun _ => rfl) (fun _ _ _ => rfl) (fun _ => rfl) t d
theorem before_1 (c : Dev nD) (t : Fin cfg2.N) (d) : (dat V c).before 1 t d = iblk V c 1 t :=
  (dat V c).before_in_eq_fetched 1 rfl (fun _ => rfl) (fun _ _ _ => rfl) (fun _ => rfl) t d
theorem before_2 (c : Dev nD) (t : Fin cfg2.N) (d) : (dat V c).before 2 t d = iblk V c 2 t :=
  (dat V c).before_in_eq_fetched 2 rfl (fun _ => rfl) (fun _ _ _ => rfl) (fun _ => rfl) t d
theorem before_3 (c : Dev nD) (t : Fin cfg2.N) (d) : (dat V c).before 3 t d = iblk V c 3 t :=
  (dat V c).before_in_eq_fetched 3 rfl (fun _ => rfl) (fun _ _ _ => rfl) (fun _ => rfl) t d
theorem before_4 (c : Dev nD) (t : Fin cfg2.N) (d) : (dat V c).before 4 t d = iblk V c 4 t :=
  (dat V c).before_in_eq_fetched 4 rfl (fun _ => rfl) (fun _ _ _ => rfl) (fun _ => rfl) t d
theorem before_5 (c : Dev nD) (t : Fin cfg2.N) (d) : (dat V c).before 5 t d = iblk V c 5 t :=
  (dat V c).before_in_eq_fetched 5 rfl (fun _ => rfl) (fun _ _ _ => rfl) (fun _ => rfl) t d

theorem hz2 : (![0, 0] : Fin 2 → ℕ) = fun _ => 0 := funext fun a => by fin_cases a <;> rfl
theorem hz1 : (![0] : Fin 1 → ℕ) = fun _ => 0 := funext fun a => by fin_cases a <;> rfl

abbrev cond1 (i : grid2.Coords) : Prop :=
  (Scalar.cmpi .ne (Scalar.extui (Scalar.cmpi .eq (BitVec.ofNat 32 (i 0).val) 0#32)) 0#32) = 1#1
abbrev cond2 (i : grid2.Coords) : Prop := k2_cond2 i = 1#1

theorem hcond1 : ∀ t : Fin cfg2.N, cond1 (grid2.coords t) ↔ t.val = 0 :=
  (by decide +kernel : ∀ t : Fin grid2.N, cond1 (grid2.coords t) ↔ t.val = 0)
theorem hcond2 : ∀ t : Fin cfg2.N, cond2 (grid2.coords t) ↔ t.val = 24 :=
  (by decide +kernel : ∀ t : Fin grid2.N, cond2 (grid2.coords t) ↔ t.val = 24)

set_option maxHeartbeats 1000000 in
-- The three control cases (first point, last point, any other) in one statement: the conditions say what the two accumulator buffers hold afterwards.
theorem sound_kernel (c : Dev nD) (E : Set ℕ) (i : grid2.Coords) (arg1 : Memref sig .tc .vmem S2000x128 .f32) (harg1 : arg1.IsWhole) (arg2 : Memref sig .tc .vmem S2000x1 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S2000x1 .i32) (harg6 : arg6.IsWhole) (arg7 : Memref sig .tc .vmem S2000x128 .f32) (harg7 : arg7.IsWhole) (arg8 : Memref sig .tc .vmem S512x128 .f32) (harg8 : arg8.IsWhole) (arg9 : Memref sig .tc .vmem S512x128 .f32) (harg9 : arg9.IsWhole)
    (h12 : ¬(cond1 i ∧ cond2 i)) (x0 : Vec F S2000x128 .f32) (x1 : Vec F S2000x1 .f32) (x2 : Vec F S128 .f32) (x3 : Vec F S128 .f32) (x4 : Vec F S128 .f32) (x5 : Vec F S2000x1 .i32) (d8 a9 : Vec F S512x128 .f32) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5
        ∗ (∃ d, owns c arg7 fullShare d) ∗ owns c arg8 fullShare d8 ∗ owns c arg9 fullShare a9
        ∗ (iprop(owns c arg1 fullShare x0 ∗ owns c arg2 fullShare x1 ∗ owns c arg3 fullShare x2 ∗ owns c arg4 fullShare x3 ∗ owns c arg5 fullShare x4 ∗ owns c arg6 fullShare x5
            ∗ owns c arg7 fullShare (haOf x0 x1 x2 x3 x4)
            ∗ owns c arg8 fullShare (if cond2 i then stepOf x0 x1 x2 x3 x4 x5 (if cond1 i then k2_pay3 else a9) else d8)
            ∗ owns c arg9 fullShare (stepOf x0 x1 x2 x3 x4 x5 (if cond1 i then k2_pay3 else a9))) -∗ K ⟨⟩))
      ⊢ wp frame (wpE (defs₀ (F := F)) Variants.none c none) E (cc2__ln_l2_pool_kernel i arg1 harg1 arg2 harg2 arg3 harg3 arg4 harg4 arg5 harg5 arg6 harg6 arg7 harg7 arg8 harg8 arg9 harg9) K := by
  simp only [cc2__ln_l2_pool_kernel_eq_skeleton]; unfold cc2__ln_l2_pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  subst hf0 hf1 hf2 hf3 hf4 hf5 hf7 hf8
  by_cases hc1 : cond1 i <;> by_cases hc2 : cond2 i
  · exact absurd ⟨hc1, hc2⟩ h12
  all_goals
    first | rw [if_pos hc1] | rw [if_neg hc1]
    first | rw [if_pos hc2] | rw [if_neg hc2]
    sl_exec (disch := first | exact hc1 | exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]; iexists _; isplitr; swap; iexact H6; ipureintro; rotate_left
    isplitl [H7]; iexists _; isplitr; swap; iexact H7; ipureintro; rotate_left
    iexists _; isplitr; swap; iexact H8; ipureintro
    all_goals first
      | (sl_unfold_run_names
         rw [View.read_writes_eq_canon _ _ _ (fun y => ⟨_, .head _, by
           apply View.mem_set_unit_zero hz2
           first | exact inb_S2000x128_S2000x128_0_0 | exact inb_S512x128_S512x128_0_0⟩), View.canon_cons_unit_zero hz2]
         simp only [haOf, stepOf, lnRows, lnSign, View.readAt_eq_ld, View.ld_unit_zero (S := S2000x128) hz2, View.ld_unit_zero (S := S2000x1) hz2,
           View.ld_unit_zero (S := S128) hz1, View.ld_unit_zero (S := S512x128) hz2, View.readCov_unit_zero (S := S512x128) _ hz2])
      | rfl

theorem idle7 (t : Fin cfg2.N) (hc2 : ¬ cond2 (grid2.coords t)) : idle2 7 (grid2.coords t) = true := by
  show (!(k2_cond2 (grid2.coords t) == 1#1)) = true
  rw [Bool.not_eq_true', beq_eq_false_iff_ne]; exact hc2
theorem live7 (t : Fin cfg2.N) (hc2 : cond2 (grid2.coords t)) : idle2 7 (grid2.coords t) = false := by
  show (!(k2_cond2 (grid2.coords t) == 1#1)) = false
  rw [Bool.not_eq_false', beq_iff_eq]; exact hc2
theorem noFlush7 (t : Fin cfg2.N) (h : t.val ≠ 24) : (win2 7).flush t = false :=
  Bool.eq_false_iff.mpr fun hf => by
    have hN : t.val < 25 := lt_of_lt_of_eq t.isLt N_2
    have := (flush2_7 t).mp hf; omega

theorem body_obligation (c : Dev nD) : BodyObligation (dat (F := F) V c) (defs₀ (F := F)) Variants.none () Set.univ := fun t => by
  rw [bigSep_W2, bigSep_W2, show (dat V c).owesAt () t.succ = (dat V c).owesAt () t.castSucc from rfl]
  simp only [before_0, before_1, before_2, before_3, before_4, before_5]
  generalize (dat V c).before 6 t = b6
  generalize (dat V c).before 7 t = b7
  dsimp only [dat]
  show _ ⊢ wp _ _ _ (bodyAt2 t) _
  unfold Φ2 scratchAt haBlk
  rw [show t.succ.val = t.val + 1 from rfl, show t.castSucc.val = t.val from rfl, if_neg (Nat.succ_ne_zero _), accAt_succ]
  unfold step
  have hN : t.val < 25 := lt_of_lt_of_eq t.isLt N_2
  have h1 := hcond1 t
  have h2 := hcond2 t
  have h12 : ¬(cond1 (grid2.coords t) ∧ cond2 (grid2.coords t)) := fun h => by have := h1.mp h.1; have := h2.mp h.2; omega
  by_cases h0 : t.val = 0
  · have hc1 := h1.mpr h0
    have hc2 : ¬ cond2 (grid2.coords t) := fun h => by have := h2.mp h; omega
    simp only [idle7 t hc2, noFlush7 t (by omega)]
    rw [if_pos h0, show accAt V c t.val = k2_pay3 (F := F) from by rw [h0]; rfl]
    iintro ⟨⟨Hrest, ⟨%X, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel c Set.univ _ _ _ _ _ _ _ _ _ _ _ _ _ _ _ _ _ _ _ h12 (iblk V c 0 t) (iblk V c 1 t) (iblk V c 2 t) (iblk V c 3 t) (iblk V c 4 t) (iblk V c 5 t) (b7 d7) X _)
    rw [if_pos hc1, if_neg hc2]
    iframe H0 H1 H2 H3 H4 H5 H7 HS
    isplitl [H6]; · iexists _; iexact H6
    iintro ⟨H0, H1, H2, H3, H4, H5, H6, H7, HS⟩
    iframe
    iexists d7; iexact H7
  · have hc1 : ¬ cond1 (grid2.coords t) := fun h => h0 (h1.mp h)
    rw [if_neg h0]
    iintro ⟨⟨Hrest, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel c Set.univ _ _ _ _ _ _ _ _ _ _ _ _ _ _ _ _ _ _ _ h12 (iblk V c 0 t) (iblk V c 1 t) (iblk V c 2 t) (iblk V c 3 t) (iblk V c 4 t) (iblk V c 5 t) (b7 d7) (accAt V c t.val) _)
    rw [if_neg hc1]
    iframe H0 H1 H2 H3 H4 H5 H7 HS
    isplitl [H6]; · iexists _; iexact H6
    iintro ⟨H0, H1, H2, H3, H4, H5, H6, H7, HS⟩
    by_cases h24 : t.val = 24
    · have hc2 := h2.mpr h24
      simp only [live7 t hc2]
      rw [if_pos hc2]
      iframe
    · have hc2 : ¬ cond2 (grid2.coords t) := fun h => h24 (h2.mp h)
      simp only [idle7 t hc2, noFlush7 t h24]
      rw [if_neg hc2]
      iframe
      iexists d7; iexact H7

theorem hin (c : Dev nD) (Pf : sProp 𝕄) :
    iprop((∃ r, prngReg c r) ∗ Pf ∗ Pipeline.scopedRest (Ix := Unit) (Name := ℕ) (U := UR sig nD τ) (Lvl := ℕ) (Val := Elt F) spec2 c)
      ⊢ (dat V c).Φ 0 := by
  rw [scopedRest_split]; dsimp only [dat, Φ2, scratchAt]
  rw [if_pos (show ((0 : Fin (cfg2.N + 1)).val = 0) from rfl)]
  iintro ⟨Hp, -, Hs, Hr⟩
  iframe

theorem hout (c : Dev nD) :
    (dat V c).Φ (Fin.last cfg2.N)
      ⊢ iprop((∃ r, prngReg c r) ∗ Pipeline.ownSems0 (Ix := Unit) (Name := ℕ) (U := UR sig nD τ) (Lvl := ℕ) (Val := Elt F) (τ := τ) (fun k : PEmpty => (k.elim : SemLoc sig)) c
        ∗ Pipeline.scopedRest (Ix := Unit) (Name := ℕ) (U := UR sig nD τ) (Lvl := ℕ) (Val := Elt F) spec2 c) := by
  rw [scopedRest_split, Pipeline.ownSems0_none]; dsimp only [dat, Φ2, scratchAt]
  rw [if_neg (by rw [Fin.val_last]; decide)]
  iintro ⟨Hr, Hs, Hp⟩
  iframe Hp Hr
  isplitr; · iempintro
  iexists _; iexact Hs

abbrev tLast : Fin cfg2.N := ⟨24, by decide⟩

theorem arrAt_early (c : Dev nD) : ∀ n, n ≤ 24 → (dat V c).arrAt 7 n = (dat V c).A 7
  | 0, _ => rfl
  | n + 1, h => by
    have hn : n < cfg2.N := lt_of_lt_of_eq (by omega : n < 25) N_2.symm
    rw [show n + 1 = (⟨n, hn⟩ : Fin cfg2.N).val + 1 from rfl, Dat.arrAt_succ,
      if_neg (by intro hf; have := (flush2_7 ⟨n, hn⟩).mp hf; dsimp only at this; omega)]
    exact arrAt_early c n (by omega)

-- The second result after the last point: its entry contents with its one block overwritten by the accumulation over all 25 points.
theorem arrAt_pooled (c : Dev nD) :
    (dat V c).arrAt 7 cfg2.N
      = ((cfg2.win 7).blk tLast).view.write (Elt F) (V c (Pipeline.arrRef spec2 7)) (accAt V c 25) Finset.univ := by
  rw [show cfg2.N = tLast.val + 1 from N_2, Dat.arrAt_succ, if_pos ((flush2_7 tLast).mpr rfl), arrAt_early V c 24 le_rfl]
  rfl

end Cert.KernelIdeal.Reg2

end
-- ==== Proof.KI.Run.lean ====
import proofs.«411879_j309237646134_3_alg».proof.Proof.Gen.KernelIdeal.Regions
import proofs.«411879_j309237646134_3_alg».proof.Proof.KI.Reg0
import proofs.«411879_j309237646134_3_alg».proof.Proof.KI.Reg1
import proofs.«411879_j309237646134_3_alg».proof.Proof.KI.Reg2
import Idealize.ShloMosaic.Lib.Pipeline.RegionsLoop

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

abbrev atRefs (W : Dev nD → Valuation τ sig (Elt F)) : (c : Dev nD) → (b : Ref sig .tc) → Buf (Elt F) ((c : Thread nD τ).loc b) :=
  fun c b => W c b

abbrev base (c : Dev nD) : (r : Ref sig .tc) → Buf (Elt F) ((c : Thread nD τ).loc r) := fun r => m ((c : Thread nD τ).loc r)

def outs4 : Gen.Outs (F := F) := fun _ r c =>
  Function.update (base m c) main_v18 ((Reg0.dat (atRefs (V3 m)) c).arrAt 5 cfg0.N) r

def outs6 : Gen.Outs (F := F) := fun J r c =>
  match J with
  | 4 => outs4 m 4 r c
  | _ => Function.update (base m c) main_v29 ((Reg1.dat (atRefs (V5 m (outs4 m))) c).arrAt 6 cfg1.N) r

-- What each region leaves in its outputs; a region's entry valuation reads the earlier regions' outputs only.
def outs : Gen.Outs (F := F) := fun J r c =>
  match J with
  | 4 => outs4 m 4 r c
  | 6 => outs6 m 6 r c
  | _ => Function.update (Function.update (base m c) main_v41_0 ((Reg2.dat (atRefs (V7 m (outs6 m))) c).arrAt 6 cfg2.N))
      main_v41_1 ((Reg2.dat (atRefs (V7 m (outs6 m))) c).arrAt 7 cfg2.N) r

theorem outs4_eq (c : Dev nD) : outs m 4 main_v18 c = (Reg0.dat (atRefs (V3 m)) c).arrAt 5 cfg0.N :=
  Function.update_self main_v18 _ (base m c)
theorem outs6_eq (c : Dev nD) : outs m 6 main_v29 c = (Reg1.dat (atRefs (V5 m (outs m))) c).arrAt 6 cfg1.N :=
  Function.update_self main_v29 _ (base m c)
theorem outs8_0_eq (c : Dev nD) : outs m 8 main_v41_0 c = (Reg2.dat (atRefs (V7 m (outs m))) c).arrAt 6 cfg2.N :=
  (Function.update_of_ne (by decide) _ (Function.update (base m c) main_v41_0 _)).trans (Function.update_self main_v41_0 _ (base m c))
theorem outs8_1_eq (c : Dev nD) : outs m 8 main_v41_1 c = (Reg2.dat (atRefs (V7 m (outs m))) c).arrAt 7 cfg2.N :=
  Function.update_self main_v41_1 _ (Function.update (base m c) main_v41_0 _)

def pdats : (p : Fin 3) → (c : Dev nD) → Dat τ (Elt F) Unit ℕ (UR sig nD τ) ℕ (cfgs p) c
  | ⟨0, _⟩ => Reg0.dat (atRefs (V3 m))
  | ⟨1, _⟩ => Reg1.dat (atRefs (V5 m (outs m)))
  | ⟨2, _⟩ => Reg2.dat (atRefs (V7 m (outs m)))

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev E : Fin 4 → Dev nD → sProp 𝕄 := fun _ c => R c

set_option backward.isDefEq.respectTransparency.types false in
-- A region that changes its output windows `O` only: off them the exit valuation `Vo` is the entry valuation `Vi`.
def reg (p : Fin 3) (kit : Pipeline.LaunchFacts (nD := nD) (τ := τ) cfgs p) (Vi Vo : Dev nD → Valuation τ sig (Elt F))
    (O : List (Fin (cfgs p).W))
    (hbody : ∀ c, BodyObligation (pdats m p c) (defs₀ (F := F)) 𝒱₀ () Set.univ)
    (h0 : ∀ c t, (pdats m p c).owed t = 0) (hq : ∀ c w, (pdats m p c).q w = fullShare)
    (hr : ∀ c, (pdats m p c).recorded 0 = Set.univ)
    (hA : ∀ c w, (pdats m p c).A w = Vi c (Pipeline.arrRef (cfgs p).spec w))
    (hio : ∀ w, w ∉ O → ((cfgs p).win w).isOut = false)
    (hFo : ∀ c, O.Forall fun w => (pdats m p c).arrAt w (cfgs p).N = Vo c (Pipeline.arrRef (cfgs p).spec w))
    (hoff : ∀ c (r : Ref sig .tc), r ∉ O.map (Pipeline.arrRef (cfgs p).spec) → Vo c r = Vi c r)
    (hin : ∀ c, iprop((∃ r, prngReg c r) ∗ Pipeline.prefHeld (pcfgs (F := F) p).pre c (fun _ => fullShare) (adm p).1
      ∗ Pipeline.scopedRest (cfgs p).spec c) ⊢ (pdats m p c).Φ 0)
    (hout : ∀ c, (pdats m p c).Φ (Fin.last (cfgs p).N)
      ⊢ iprop((∃ r, prngReg c r) ∗ Pipeline.ownSems0 (fun k : PEmpty => (k.elim : SemLoc sig)) c ∗ Pipeline.scopedRest (cfgs p).spec c)) :
    Pipeline.RegionSeg (pcfgs (F := F)) adm (pdats m) () defs₀ 𝒱₀ L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p h0
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c (atRefs Vi c)
  hentry c := by
    have hsplit := Pipeline.arrays_of_unscopedBufs (p := p) (pcfgs (F := F)) adm (pdats m) kit.win kit.arr_whole c
      ((pdats m p c).share_full (hq c)) (atRefs Vi c) (hA c)
    rw [Pipeline.unscopedBufs_held] at hsplit
    rw [Pipeline.ownSems0_none]; unfold Pipeline.Dat.owesAt Pipeline.owesWithin; rw [h0 c 0]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl ((hr c).symm ▸ trivial)
      iexact HO
    isplitl [Hp]; · iexact Hp
    iexact Hrest
  hin := hin
  hout := hout
  hexit c := by
    have hjoin := Pipeline.unscopedBufs_of_arrays (p := p) (pcfgs (F := F)) adm (Ix := Unit) (Name := ℕ) (U := UR sig nD τ) (Lvl := ℕ)
      kit.win kit.arr_whole c (pdats m) ((pdats m p c).share_full (hq c))
      (atRefs Vi c) (atRefs Vo c) ((pdats m p c).arrAt · (cfgs p).N)
      (fun w => if h : w ∈ O then List.forall_iff_forall_mem.1 (hFo c) w h else
        ((pdats m p c).arrAt_in w (hio w h) _).trans ((hA c w).trans (hoff c _ fun h' =>
          let ⟨_, hw, e⟩ := List.mem_map.1 h'; h (kit.win.arr_inj e ▸ hw)).symm))
      fun b hb => hoff c b fun h => let ⟨w, _, e⟩ := List.mem_map.1 h; hb (Finset.mem_image.2 ⟨w, Finset.mem_univ _, e⟩)
    rw [Pipeline.unscopedBufs_held] at hjoin
    unfold Pipeline.Dat.owesAt Pipeline.owesWithin; rw [h0 c]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

theorem hinA {gr W : ℕ} (spec : Fin W → Pipeline.WinSpec sig gr) (c : Dev nD) (Pf : sProp 𝕄) :
    iprop((∃ r, prngReg c r) ∗ Pf ∗ Pipeline.scopedRest spec c) ⊢ Pipeline.ΦA (U := UR sig nD τ) spec c := by
  unfold Pipeline.ΦA; iintro ⟨Hp, -, Hr⟩
  isplitl [Hr]; · iexact Hr
  iexact Hp

theorem houtA {gr W : ℕ} (spec : Fin W → Pipeline.WinSpec sig gr) (c : Dev nD) :
    Pipeline.ΦA (U := UR sig nD τ) spec c
      ⊢ (iprop((∃ r, prngReg c r) ∗ Pipeline.ownSems0 (fun k : PEmpty => (k.elim : SemLoc sig)) c ∗ Pipeline.scopedRest spec c) : sProp 𝕄) := by
  rw [Pipeline.ownSems0_none]; unfold Pipeline.ΦA; iintro ⟨Hr, Hp⟩
  isplitl [Hp]; · iexact Hp
  isplitr; · iempintro
  iexact Hr

def reg0 := reg m 0 launch0 (V3 m) (V4 m (outs m)) [5] (Reg0.body_obligation _) (fun _ _ => rfl) (fun _ _ => rfl) (fun _ => rfl)
  (Reg0.A_eq _) (by decide) (fun c => ((Function.update_self (main_v18 : DevRef τ sig) _ (V3 m c)).trans (outs4_eq m c)).symm)
  (V4_of m (outs m)) (fun c => hinA spec0 c _) (houtA spec0)

def reg1 := reg m 1 launch1 (V5 m (outs m)) (V6 m (outs m)) [6] (Reg1.body_obligation _) (fun _ _ => rfl) (fun _ _ => rfl) (fun _ => rfl)
  (Reg1.A_eq _) (by decide) (fun c => ((Function.update_self (main_v29 : DevRef τ sig) _ (V5 m (outs m) c)).trans (outs6_eq m c)).symm)
  (V6_of m (outs m)) (fun c => hinA spec1 c _) (houtA spec1)

def reg2 := reg m 2 launch2 (V7 m (outs m)) (V8 m (outs m)) [6, 7] (Reg2.body_obligation _) (fun _ _ => rfl) (fun _ _ => rfl) (fun _ => rfl)
  (Reg2.A_eq _) (by decide)
  (fun c => ⟨((Function.update_of_ne (StableHlo.devRef_ne_of_ne (by decide)) _ _).trans
      ((Function.update_self (main_v41_0 : DevRef τ sig) _ (V7 m (outs m) c)).trans (outs8_0_eq m c))).symm,
    ((Function.update_self (main_v41_1 : DevRef τ sig) _ (Function.update (V7 m (outs m) c) (main_v41_0 : DevRef τ sig) _)).trans
      (outs8_1_eq m c)).symm⟩)
  (V8_of m (outs m)) (fun c => Reg2.hin _ c _) (Reg2.hout _)

abbrev u₀ : UR sig nD τ := initOf (Pipeline.cells cfgs cellOf_inj) (Pipeline.launchToks cfgs cellOf_inj)

theorem hu₀ : (ownU u₀ : sProp 𝕄) ⊢ |={Set.univ}=> iprop(BI.own (emb₁ u₀) ∗ bigSep Finset.univ fun _ : Dev nD => (BI.emp : sProp 𝕄)) := by
  rw [BI.bigSep_emp_const]; iintro Hu; imodintro
  isplitl [Hu]
  · iapply (show (ownU u₀ : sProp 𝕄) ⊢ BI.own (emb₁ u₀) from .rfl)
    iexact Hu
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE3 (c : Dev nD) : E (F := F) 3 c ⊢ (iprop(∃ W, owes (c : Thread nD τ) (0 : CellTallies nD τ sig Unit) W) : sProp 𝕄) := by
  iintro ⟨-, HO⟩; iexact HO

set_option backward.isDefEq.respectTransparency.types false in
-- The conditional frame at the three regions' records: @main runs to its end and every argument ends as launched.
def frame (ρ : Dev nD → PrngReg) :=
  Gen.frame_cond m emb₁ () 𝒱₀ L lv (fun _ _ => rfl) ρ (outs m) (pdats m) (O₀ := 0) (G := fun _ => BI.emp) (u₀ := u₀) (hu₀ := hu₀)
    (E := E) (hE0 := hE0 ρ) (hE3 := hE3)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)

end Cert.KernelIdeal.Run

end
-- ==== Proof.KI.RunValues.lean ====
import proofs.«411879_j309237646134_3_alg».proof.Proof.KI.Run
import proofs.«411879_j309237646134_3_alg».proof.Proof.KI.RunCond

noncomputable section

namespace Cert.KernelIdeal.Run

open Cert.KernelIdeal Cert.KernelIdeal.Gen
open Idealize.ShloMosaic Idealize.ShloMosaic.TcCoe
open Idealize.SL Idealize.SL.BI Idealize.SL.Sem

variable {F : FTy → Type} [FloatOps F]

variable (m : (ℓ : Loc nD τ sig) → Buf (Elt F) ℓ)

set_option backward.isDefEq.respectTransparency.types false in
-- The conditional run at the same records: besides, the two result buffers end at the last valuation over `outs m`.
def run_values (ρ : Dev nD → PrngReg) :=
  Gen.run_cond m emb₁ () 𝒱₀ L lv (fun _ _ => rfl) ρ (outs m) (pdats m) (O₀ := 0) (G := fun _ => BI.emp) (u₀ := u₀) (hu₀ := hu₀)
    (E := E) (hE0 := hE0 ρ) (hE3 := hE3)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)

end Cert.KernelIdeal.Run

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Mat (a b : ℕ) : Type := (⟨2, ![a, b]⟩ : Shape).Idx → EReal
abbrev Vec1 (a : ℕ) : Type := (⟨1, ![a]⟩ : Shape).Idx → EReal

abbrev slope : EReal := Ideal.ofBits .f32 0x3C23D70A#32
abbrev eps : EReal := Ideal.ofBits .f32 0x3727C5AC#32
abbrev tiny : EReal := Ideal.ofBits .f32 0x2B8CBCCC#32

def leaky (y : EReal) : EReal := if (0 : EReal) ≤ y then y else slope * y

def mm {n a b : ℕ} (X : Mat n a) (W : Mat a b) : Mat n b :=
  fun i => ∑ k : Fin a, X (ix2 (i 0) k) * W (ix2 k (i 1))

def addRow {n b : ℕ} (X : Mat n b) (v : Vec1 b) : Mat n b := fun i => X i + v (ix1 (i 1))

def scaleRows {n b : ℕ} (X : Mat n b) (s : Fin n → EReal) : Mat n b := fun i => X i * s (i 0)

def lrelu {n b : ℕ} (X : Mat n b) : Mat n b := fun i => leaky (X i)

def rowMean {n d : ℕ} (dW : EReal) (X : Mat n d) (r : Fin n) : EReal :=
  Ideal.div (∑ k : Fin d, X (ix2 r k)) dW

def rowVar {n d : ℕ} (dW : EReal) (X : Mat n d) (r : Fin n) : EReal :=
  Ideal.div (∑ k : Fin d, (X (ix2 r k) - rowMean dW X r) * (X (ix2 r k) - rowMean dW X r)) dW

def layerNorm {n d : ℕ} (dW : EReal) (X : Mat n d) (g β : Vec1 d) : Mat n d := fun i =>
  (X i - rowMean dW X (i 0)) * Ideal.rsqrt (rowVar dW X (i 0) + eps) * g (ix1 (i 1)) + β (ix1 (i 1))

def rowLen {n d : ℕ} (X : Mat n d) (r : Fin n) : EReal := Ideal.sqrt (∑ k : Fin d, X (ix2 r k) * X (ix2 r k))

def l2norm {n d : ℕ} (X : Mat n d) : Mat n d := fun i => Ideal.div (X i) (max (rowLen X (i 0)) tiny)

-- the edges ending at node `r`; an edge whose end word names no node ends nowhere
def into {n E : ℕ} (dst : Fin E → ℤ) (r : Fin n) : Finset (Fin E) := Finset.univ.filter fun e => dst e = (r.val : ℤ)

def agg {n d E : ℕ} (X : Mat n d) (src : Fin E → Fin n) (dst : Fin E → ℤ) : Mat n d :=
  fun i => ∑ e ∈ into dst (i 0), X (ix2 (src e) (i 1))

-- the normalised edge sum with rows scaled before and after the sum
def convSum {n d E : ℕ} (XW : Mat n d) (w : Fin n → EReal) (src : Fin E → Fin n) (dst : Fin E → ℤ) (bias : Vec1 d) : Mat n d :=
  addRow (scaleRows (agg (scaleRows XW w) src dst) w) bias

-- the same sum with each edge's message scaled by both ends' weights
def convEdges {n d E : ℕ} (XW : Mat n d) (w : Fin n → EReal) (src dstN : Fin E → Fin n) (dst : Fin E → ℤ) (bias : Vec1 d) : Mat n d :=
  addRow (fun i => ∑ e ∈ into dst (i 0), XW (ix2 (src e) (i 1)) * (w (src e) * w (dstN e))) bias

def pool {n d G : ℕ} (X : Mat n d) (gid : Fin n → ℤ) : Mat G d :=
  fun i => ∑ r ∈ Finset.univ.filter (fun r : Fin n => gid r = ((i 0).val : ℤ)), X (ix2 r (i 1))

-- row `k` of the edge list followed by one self loop per node
def edgeWord (ei : (⟨2, ![2, 400000]⟩ : Shape).Idx → BitVec 32) (k : Fin 2) (e : Fin 450000) : BitVec 32 :=
  if h : e.val < 400000 then ei (ix2 k ⟨e.val, h⟩) else BitVec.ofNat 32 (e.val - 400000)

-- the node a word fetches: a negative word wraps by the node count, then the value is clamped
def nodeOf (s : BitVec 32) : Fin 50000 :=
  ⟨min ((if s.toInt < 0 then s + 50000#32 else s).toInt.toNat) 49999, by omega⟩

def srcOf (ei : (⟨2, ![2, 400000]⟩ : Shape).Idx → BitVec 32) (e : Fin 450000) : Fin 50000 := nodeOf (edgeWord ei 0 e)
def dstNodeOf (ei : (⟨2, ![2, 400000]⟩ : Shape).Idx → BitVec 32) (e : Fin 450000) : Fin 50000 := nodeOf (edgeWord ei 1 e)
def dstOf (ei : (⟨2, ![2, 400000]⟩ : Shape).Idx → BitVec 32) (e : Fin 450000) : ℤ := (edgeWord ei 1 e).toInt

-- in-degree as a sum of ones; the weight is its reciprocal square root, zero at degree zero
def degree {n E : ℕ} (dst : Fin E → ℤ) (r : Fin n) : EReal :=
  Ideal.ofBits .f32 0x00000000#32 + ∑ _e ∈ into dst r, Ideal.ofBits .f32 0x3F800000#32
def weight {n E : ℕ} (dst : Fin E → ℤ) (r : Fin n) : EReal :=
  if Ideal.ofBits .f32 0x00000000#32 < degree dst r then Ideal.rsqrt (max (degree dst r) (Ideal.ofBits .f32 0x3F800000#32))
  else Ideal.ofBits .f32 0x00000000#32

def embed {n : ℕ} (conv1 : Mat n 256 → Vec1 256 → Mat n 256) (conv2 : Mat n 128 → Vec1 128 → Mat n 128)
    (x : Mat n 92) (W0 : Mat 92 256) (b0 : Vec1 256) (g1 β1 : Vec1 256) (W1 : Mat 256 256) (b1 : Vec1 256)
    (g2 β2 : Vec1 128) (W2 : Mat 256 128) (b2 : Vec1 128) : Mat n 128 :=
  let h0 := lrelu (addRow (mm x W0) b0)
  let h1 := lrelu (layerNorm (Ideal.ofBits .f32 0x43800000#32) (conv1 (mm h0 W1) b1) g1 β1)
  let h2 := lrelu (layerNorm (Ideal.ofBits .f32 0x43000000#32) (conv2 (mm h1 W2) b2) g2 β2)
  l2norm h2

def headOf {G : ℕ} (P : Mat G 128) (Wf1 : Mat 128 64) (bf1 : Vec1 64) (Wf2 : Mat 64 1) (bf2 : Vec1 1) : Mat G 1 :=
  addRow (mm (lrelu (addRow (mm P Wf1) bf1)) Wf2) bf2

def head {n G : ℕ} (ha : Mat n 128) (gid : Fin n → ℤ) (Wf1 : Mat 128 64) (bf1 : Vec1 64) (Wf2 : Mat 64 1) (bf2 : Vec1 1) : Mat G 1 :=
  headOf (pool (G := G) ha gid) Wf1 bf1 Wf2 bf2

end Cert.Spec

end
-- ==== Proof.LibColumn.lean ====
import Idealize.ShloMosaic.Lib.Pipeline.Value
import Idealize.ShloMosaic.Lib.ValueIdx

namespace Cert.LibColumn

open Idealize.ShloMosaic Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    have := p.isLt
    split <;> omega
  | ⟨1, _⟩ => rfl

end Cert.LibColumn
-- ==== Proof.KI.Val0.lean ====
import proofs.«411879_j309237646134_3_alg».proof.Proof.KI.Reg0
import proofs.«411879_j309237646134_3_alg».proof.Proof.Spec
import proofs.«411879_j309237646134_3_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Val0

open Cert.KernelIdeal Cert.KernelIdeal.Gen
open Idealize.ShloMosaic Idealize.ShloMosaic.ValueIdx Idealize.ShloMosaic.TcCoe

/-- A product into the zero accumulator that contracts one axis of extent n is the sum over that axis (il, ir: the operands' indices at term k). -/
theorem matmul_sum {sl sr so : Shape} {φ₁ φ₂ : FTy} (d : DotDims sl sr so) (n : ℕ) (hr : d.contr.rank = 1)
    (hs : d.contr.size ⟨0, by omega⟩ = n) (l : FVec Ideal sl φ₁) (r : FVec Ideal sr φ₂) (j : so.Idx)
    (il : Fin n → sl.Idx) (ir : Fin n → sr.Idx)
    (hl : ∀ k, d.lhsIdx j ((contrEquiv1 d n hr hs).symm k) = il k) (hr' : ∀ k, d.rhsIdx j ((contrEquiv1 d n hr hs).symm k) = ir k) :
    matmul d none l r (constant (F := Ideal) so .f32 0x00000000#32) j = ∑ k : Fin n, l (il k) * r (ir k) := by
  rw [matmul, Ideal.matmul_constant_zero_apply, ← Equiv.sum_comp (contrEquiv1 d n hr hs).symm]
  exact Finset.sum_congr rfl fun k _ => by rw [hl, hr']

theorem leaky_select (y : EReal) :
    Scalar.select (FloatOps.cmpf (F := Ideal) (φ := .f32) .oge y (Scalar.ofBits .f32 0x00000000#32)) y
        ((Scalar.ofBits (F := Ideal) .f32 0x3C23D70A#32 : EReal) * y) = Spec.leaky y := by
  show Scalar.select (Ideal.cmp .oge y (Ideal.ofBits .f32 0x00000000#32)) y (Ideal.ofBits .f32 0x3C23D70A#32 * y) = _
  rw [Ideal.ofBits_zero_f32]
  show (if BitVec.ofBool (decide ((0 : EReal) ≤ y)) = 1#1 then y else _) = if (0 : EReal) ≤ y then y else _
  by_cases h : (0 : EReal) ≤ y
  · rw [if_pos h, decide_eq_true h]; rfl
  · rw [if_neg h, decide_eq_false h]; rfl

/-- The sum of a matrix over its second axis, at row p. -/
theorem rowSum_apply {n C : ℕ} (x : FVec Ideal ⟨2, ![n, C]⟩ .f32) (h : (⟨2, ![n, C]⟩ : Shape).Reduces [1] ⟨1, ![n]⟩)
    (hφ : FTy.f32 = FTy.f32 ∨ FTy.f32 = FTy.bf16) (hacc : (0x00000000#32 : BitVec 32) = 0x00000000#32) (p : Fin n) :
    multiReduction .add [1] ⟨1, ![n]⟩ x 0x00000000#32 h hφ hacc (ix1 p) = ∑ k : Fin C, x (ix2 p k) :=
  (Ideal.multiReduction_add_single x _ h hφ hacc (ix1 p)).trans
    (Finset.sum_congr rfl fun k _ => congrArg x (Shape.idx_ext₂ rfl rfl))

/-- A vector laid along every row of a matrix, and a column laid along every column, read at an index. -/
theorem rowOf_apply {a b : ℕ} (x : FVec Ideal ⟨1, ![b]⟩ .f32) (h₁ : (⟨1, ![b]⟩ : Shape).ShapeCasts ⟨2, ![1, b]⟩)
    (h₂ : (⟨2, ![1, b]⟩ : Shape).Broadcasts ⟨2, ![a, b]⟩) (p : Fin a) (k : Fin b) :
    broadcastTo ⟨2, ![a, b]⟩ (shapeCast ⟨2, ![1, b]⟩ x h₁) h₂ (ix2 p k) = x (ix1 k) :=
  (broadcastTo_1b_ab_apply _ _ p k).trans (shapeCast_a_1a_apply x _ 0 k)
theorem colOf_apply {a b : ℕ} (x : FVec Ideal ⟨2, ![a, 1]⟩ .f32) (h₁ : (⟨2, ![a, 1]⟩ : Shape).ShapeCasts ⟨2, ![a, 1]⟩)
    (h₂ : (⟨2, ![a, 1]⟩ : Shape).Broadcasts ⟨2, ![a, b]⟩) (p : Fin a) (k : Fin b) :
    broadcastTo ⟨2, ![a, b]⟩ (shapeCast ⟨2, ![a, 1]⟩ x h₁) h₂ (ix2 p k) = x (ix2 p 0) :=
  (LibColumn.broadcastTo_a1_ab_apply _ _ p k).trans (congrFun (shapeCast_self x _) _)

theorem sqrt_apply {s : Shape} (a : FVec Ideal s .f32) (i : s.Idx) : sqrt a i = Ideal.sqrt (a i) := rfl
theorem rsqrt_apply {s : Shape} (a : FVec Ideal s .f32) (i : s.Idx) : rsqrt a i = Ideal.rsqrt (a i) := rfl

theorem pay_apply (x0 : Vec Ideal S2000x92 .f32) (x1 : Vec Ideal S92x256 .f32) (x2 : Vec Ideal S256 .f32)
    (x3 : Vec Ideal S256x256 .f32) (x4 : Vec Ideal S2000x1 .f32) (p : Fin 2000) (q : Fin 256) :
    Gen.k0_pay1 x0 x1 x2 x3 x4 (ix2 p q)
      = (∑ k : Fin 256, Spec.leaky ((∑ a : Fin 92, x0 (ix2 p a) * x1 (ix2 a k)) + x2 (ix1 k)) * x3 (ix2 k q)) * x4 (ix2 p 0) := by
  unfold Gen.k0_pay1
  refine (mulf_apply _ _ _).trans (congrArg₂ (· * ·) ?_ (colOf_apply x4 _ _ p q))
  refine (matmul_sum _ 256 rfl rfl _ _ _ (fun k => ix2 p k) (fun k => ix2 k q) (fun _ => Shape.idx_ext₂ rfl rfl)
    fun _ => Shape.idx_ext₂ rfl rfl).trans (Finset.sum_congr rfl fun k _ => congrArg₂ (· * ·) ?_ rfl)
  refine (leaky_select _).trans (congrArg Spec.leaky ((addf_apply _ _ _).trans (congrArg₂ (· + ·) ?_ (rowOf_apply x2 _ _ p k))))
  exact matmul_sum _ 92 rfl rfl _ _ _ (fun a => ix2 p a) (fun a => ix2 a k) (fun _ => Shape.idx_ext₂ rfl rfl)
    fun _ => Shape.idx_ext₂ rfl rfl

/-- Row r of a matrix of 50000 rows lies in the block of 2000 rows that starts at row 2000 (r / 2000). -/
theorem mem_rowTile {C : ℕ} (i : (⟨2, ![50000, C]⟩ : Shape).Idx) (off size : Fin 2 → ℕ) (inb)
    (h0 : off 0 = (i 0).val / 2000 * 2000) (h1 : off 1 = 0) (s0 : size 0 = 2000) (s1 : size 1 = C) :
    i ∈ (Rect.unit (s := ⟨2, ![50000, C]⟩) off size inb).set :=
  Rect.mem_set_unit.2 fun a => match a with
    | ⟨0, _⟩ => by show off 0 ≤ (i 0).val ∧ (i 0).val < off 0 + size 0; omega
    | ⟨1, _⟩ => by have := idx2_lt1 i; show off 1 ≤ (i 1).val ∧ (i 1).val < off 1 + size 1; omega

variable (V : (c : Dev nD) → (b : Ref sig .tc) → Buf (Elt Ideal) ((c : Thread nD τ).loc b))

theorem idx_facts : ∀ t : Fin cfg0.N,
    win0_0.index t (0 : Fin 2) = t.val ∧ win0_0.index t (1 : Fin 2) = 0
    ∧ (∀ a : Fin 2, win0_1.index t a = 0) ∧ (∀ a : Fin 1, win0_2.index t a = 0) ∧ (∀ a : Fin 2, win0_3.index t a = 0)
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- What point t writes back is block t of the specification's term: row blocks are rows 2000 t .. 2000 t + 1999 of their arrays, weight blocks are their arrays. -/
theorem flushed_eq (c : Dev nD) (t : Fin cfg0.N) :
    (Reg0.dat V c).flushed 5 t = ((cfg0.win 5).blk t).view.read (Elt Ideal)
      (Spec.scaleRows (Spec.mm (Spec.lrelu (Spec.addRow (Spec.mm (V c main_arg0) (V c main_arg3)) (V c main_arg4))) (V c main_arg7))
        (fun r => V c main_v17 (ix2 r 0)) : Spec.Mat 50000 256) := by
  show (cfg0.win 5).cut (grid0.coords t) ((Reg0.dat V c).after 5 t) = _
  rw [Reg0.after_out]
  have ht : t.val < 25 := Nat.lt_of_lt_of_eq t.isLt Gen.N_0
  obtain ⟨e00, e01, e1, e2, e3, e40, e41, e50, e51⟩ := idx_facts t
  funext j
  obtain ⟨p, q, rfl⟩ : ∃ (p : Fin 2000) (q : Fin 256), j = ix2 p q := ⟨j 0, j 1, eq_ix2 j⟩
  have hr : t.val * 2000 + p.val < 50000 := by omega
  have h0 : ∀ a : Fin 92, (Reg0.iblk V c 0 t : Vec Ideal S2000x92 .f32) (ix2 p a) = V c main_arg0 (ix2 ⟨t.val * 2000 + p.val, hr⟩ a) := fun a =>
    congrArg (V c main_arg0) (Shape.idx_ext₂ ((win0_0.rect_emb_val t _ (0 : Fin 2)).trans (by rw [e00]; rfl))
      (win0_0.rect_emb_val_of_index_zero t (1 : Fin 2) e01 _))
  have h1 : (Reg0.iblk V c 1 t : Vec Ideal S92x256 .f32) = V c main_arg3 := funext fun y =>
    congrArg (V c main_arg3) (funext fun a => Fin.ext (win0_1.rect_emb_val_of_index_zero t a (e1 a) y))
  have h2 : (Reg0.iblk V c 2 t : Vec Ideal S256 .f32) = V c main_arg4 := funext fun y =>
    congrArg (V c main_arg4) (funext fun a => Fin.ext (win0_2.rect_emb_val_of_index_zero t a (e2 a) y))
  have h3 : (Reg0.iblk V c 3 t : Vec Ideal S256x256 .f32) = V c main_arg7 := funext fun y =>
    congrArg (V c main_arg7) (funext fun a => Fin.ext (win0_3.rect_emb_val_of_index_zero t a (e3 a) y))
  have h4 : (Reg0.iblk V c 4 t : Vec Ideal S2000x1 .f32) (ix2 p 0) = V c main_v17 (ix2 ⟨t.val * 2000 + p.val, hr⟩ 0) :=
    congrArg (V c main_v17) (Shape.idx_ext₂ ((win0_4.rect_emb_val t _ (0 : Fin 2)).trans (by rw [e40]; rfl))
      (win0_4.rect_emb_val_of_index_zero t (1 : Fin 2) e41 _))
  have h5 : ((cfg0.win 5).blk t).view.emb (ix2 p q) = (ix2 (⟨t.val * 2000 + p.val, hr⟩ : Fin 50000) q : S50000x256.Idx) :=
    Shape.idx_ext₂ ((win0_5.rect_emb_val t _ (0 : Fin 2)).trans (by rw [e50]; rfl)) (win0_5.rect_emb_val_of_index_zero t (1 : Fin 2) e51 _)
  refine (pay_apply _ _ _ _ _ p q).trans ?_
  rw [h1, h2, h3, h4, View.read_apply, h5]
  simp only [h0]
  rfl

/-- The 25 blocks cover the array: row r is in the block of point r / 2000. -/
theorem cover (i : S50000x256.Idx) :
    ∃ t : Fin cfg0.N, (cfg0.win 5).flush t = true ∧ i ∈ ((cfg0.win 5).blk t).view.set := by
  have hlt : (i 0).val / 2000 < cfg0.N := by have := idx2_lt0 i; rw [show cfg0.N = 25 from Gen.N_0]; omega
  obtain ⟨-, -, -, -, -, -, -, e0, e1⟩ := idx_facts ⟨_, hlt⟩
  refine ⟨⟨_, hlt⟩, Gen.flush0_5 _, ?_⟩
  rw [show ((cfg0.win 5).blk ⟨_, hlt⟩).view.set = (win0_5.rect ⟨_, hlt⟩).set from View.set_slice_whole main_v18 _]
  exact mem_rowTile i _ _ _ (congrArg (· * 2000) e0) ((congrArg (· * 256) e1).trans (Nat.zero_mul _)) rfl rfl

theorem out0 (c : Dev nD) :
    ((Reg0.dat V c).arrAt 5 cfg0.N : Spec.Mat 50000 256)
      = Spec.scaleRows (Spec.mm (Spec.lrelu (Spec.addRow (Spec.mm (V c main_arg0) (V c main_arg3)) (V c main_arg4))) (V c main_arg7))
          (fun r => V c main_v17 (ix2 r 0)) :=
  (Reg0.dat V c).arrAt_eq_of_cover 5 _ (fun t _ => flushed_eq V c t) cover

end Cert.KernelIdeal.Val0

end
-- ==== Proof.KI.Val1.lean ====
import proofs.«411879_j309237646134_3_alg».proof.Proof.KI.Reg1
import proofs.«411879_j309237646134_3_alg».proof.Proof.KI.Val0

noncomputable section

namespace Cert.KernelIdeal.Val1

open Cert.KernelIdeal Cert.KernelIdeal.Gen Cert.KernelIdeal.Val0
open Idealize.ShloMosaic Idealize.ShloMosaic.TcCoe Idealize.ShloMosaic.ValueIdx

/-- The specification's term for region 1, over arrays of n rows. -/
def G {n : ℕ} (X : Spec.Mat n 256) (s : Fin n → EReal) (b g β : Spec.Vec1 256) (W : Spec.Mat 256 128) : Spec.Mat n 128 :=
  Spec.scaleRows (Spec.mm (Spec.lrelu (Spec.layerNorm (Ideal.ofBits .f32 0x43800000#32) (Spec.addRow (Spec.scaleRows X s) b) g β)) W) s

theorem pay2_eq (x0 : Vec Ideal S2000x256 .f32) (x1 : Vec Ideal S2000x1 .f32) (x2 x3 x4 : Vec Ideal S256 .f32) :
    k1_pay2 (F := Ideal) x0 x1 x2 x3 x4
      = Spec.lrelu (Spec.layerNorm (Ideal.ofBits .f32 0x43800000#32) (Spec.addRow (Spec.scaleRows x0 (fun r => x1 (ix2 r 0))) x2) x3 x4) := by
  funext i
  obtain ⟨p, k, rfl⟩ : ∃ (p : Fin 2000) (k : Fin 256), i = ix2 p k := ⟨i 0, i 1, eq_ix2 i⟩
  unfold k1_pay2
  refine (leaky_select _).trans (congrArg Spec.leaky ?_)
  simp only [addf_apply, mulf_apply, subf_apply, divf_apply, rsqrt_apply, broadcast_apply, rowOf_apply,
    LibColumn.broadcastTo_a1_ab_apply, shapeCast_self, LibColumn.shapeCast_a_a1_apply]
  rw [rowSum_apply, rowSum_apply]
  simp only [addf_apply, mulf_apply, subf_apply, divf_apply, broadcast_apply, rowOf_apply,
    LibColumn.broadcastTo_a1_ab_apply, shapeCast_self, LibColumn.shapeCast_a_a1_apply]
  rw [rowSum_apply]
  simp only [addf_apply, mulf_apply, rowOf_apply, LibColumn.broadcastTo_a1_ab_apply, shapeCast_self]
  rfl

theorem oblk_apply (x0 : Vec Ideal S2000x256 .f32) (x1 : Vec Ideal S2000x1 .f32) (x2 x3 x4 : Vec Ideal S256 .f32)
    (x5 : Vec Ideal S256x128 .f32) (p : Fin 2000) (q : Fin 128) :
    Reg1.oblk (F := Ideal) x0 x1 x2 x3 x4 x5 (ix2 p q) = G x0 (fun r => x1 (ix2 r 0)) x2 x3 x4 x5 (ix2 p q) := by
  unfold Reg1.oblk k1_pay1
  rw [pay2_eq]
  exact (mulf_apply _ _ _).trans (congrArg₂ (· * ·) (matmul_sum _ 256 rfl rfl _ _ _ (fun k => ix2 p k) (fun k => ix2 k q)
    (fun _ => Shape.idx_ext₂ rfl rfl) fun _ => Shape.idx_ext₂ rfl rfl) (colOf_apply x1 _ _ p q))

/-- Entry (r, q) of G reads row r of X and the weight s r alone. -/
theorem G_row {n m : ℕ} (X : Spec.Mat n 256) (s : Fin n → EReal) (X' : Spec.Mat m 256) (s' : Fin m → EReal)
    (b g β : Spec.Vec1 256) (W : Spec.Mat 256 128) (r : Fin n) (r' : Fin m)
    (hX : ∀ k, X (ix2 r k) = X' (ix2 r' k)) (hs : s r = s' r') (q : Fin 128) :
    G X s b g β W (ix2 r q) = G X' s' b g β W (ix2 r' q) := by
  show G (fun i : (⟨2, ![1, 256]⟩ : Shape).Idx => X (ix2 r (i 1))) (fun _ => s r) b g β W (ix2 (0 : Fin 1) q)
    = G (fun i : (⟨2, ![1, 256]⟩ : Shape).Idx => X' (ix2 r' (i 1))) (fun _ => s' r') b g β W (ix2 (0 : Fin 1) q)
  rw [hs, show (fun i : (⟨2, ![1, 256]⟩ : Shape).Idx => X (ix2 r (i 1))) = fun i => X' (ix2 r' (i 1)) from funext fun i => hX (i 1)]

variable (V : (c : Dev nD) → (b : Ref sig .tc) → Buf (Elt Ideal) ((c : Thread nD τ).loc b))

theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ (∀ a : Fin 1, win1_2.index t a = 0) ∧ (∀ a : Fin 1, win1_3.index t a = 0) ∧ (∀ a : Fin 1, win1_4.index t a = 0)
    ∧ (∀ a : Fin 2, win1_5.index t a = 0)
    ∧ win1_6.index t (0 : Fin 2) = t.val ∧ win1_6.index t (1 : Fin 2) = 0 :=
  (by decide +kernel : ∀ t : Fin grid1.N, _)

theorem flushed_eq (c : Dev nD) (t : Fin cfg1.N) :
    (Reg1.dat V c).flushed 6 t = ((cfg1.win 6).blk t).view.read (Elt Ideal)
      (G (V c main_v28) (fun r => V c main_v17 (ix2 r 0)) (V c main_arg8) (V c main_arg5) (V c main_arg6) (V c main_arg11)) := by
  show (cfg1.win 6).cut (grid1.coords t) ((Reg1.dat V c).after 6 t) = _
  rw [Reg1.after_out]
  obtain ⟨a0, a1, b0, b1, e2, e3, e4, e5, o0, o1⟩ := idx_facts t
  have ht : t.val < 25 := Nat.lt_of_lt_of_eq t.isLt N_1
  funext y
  obtain ⟨p, q, rfl⟩ : ∃ (p : Fin 2000) (q : Fin 128), y = ix2 p q := ⟨y 0, y 1, eq_ix2 y⟩
  have hr : t.val * 2000 + p.val < 50000 := by omega
  have h0 : ∀ k : Fin 256, (Reg1.iblk V c 0 t : Vec Ideal S2000x256 .f32) (ix2 p k) = V c main_v28 (ix2 ⟨t.val * 2000 + p.val, hr⟩ k) := fun k =>
    congrArg (V c main_v28) (Shape.idx_ext₂ ((win1_0.rect_emb_val t _ (0 : Fin 2)).trans (by rw [a0]; rfl))
      (win1_0.rect_emb_val_of_index_zero t (1 : Fin 2) a1 _))
  have h1 : (Reg1.iblk V c 1 t : Vec Ideal S2000x1 .f32) (ix2 p 0) = V c main_v17 (ix2 ⟨t.val * 2000 + p.val, hr⟩ 0) :=
    congrArg (V c main_v17) (Shape.idx_ext₂ ((win1_1.rect_emb_val t _ (0 : Fin 2)).trans (by rw [b0]; rfl))
      (win1_1.rect_emb_val_of_index_zero t (1 : Fin 2) b1 _))
  have h2 : (Reg1.iblk V c 2 t : Vec Ideal S256 .f32) = V c main_arg8 := funext fun y =>
    congrArg (V c main_arg8) (funext fun a => Fin.ext (win1_2.rect_emb_val_of_index_zero t a (e2 a) y))
  have h3 : (Reg1.iblk V c 3 t : Vec Ideal S256 .f32) = V c main_arg5 := funext fun y =>
    congrArg (V c main_arg5) (funext fun a => Fin.ext (win1_3.rect_emb_val_of_index_zero t a (e3 a) y))
  have h4 : (Reg1.iblk V c 4 t : Vec Ideal S256 .f32) = V c main_arg6 := funext fun y =>
    congrArg (V c main_arg6) (funext fun a => Fin.ext (win1_4.rect_emb_val_of_index_zero t a (e4 a) y))
  have h5 : (Reg1.iblk V c 5 t : Vec Ideal S256x128 .f32) = V c main_arg11 := funext fun y =>
    congrArg (V c main_arg11) (funext fun a => Fin.ext (win1_5.rect_emb_val_of_index_zero t a (e5 a) y))
  have h6 : ((cfg1.win 6).blk t).view.emb (ix2 p q) = (ix2 (⟨t.val * 2000 + p.val, hr⟩ : Fin 50000) q : S50000x128.Idx) :=
    Shape.idx_ext₂ ((win1_6.rect_emb_val t _ (0 : Fin 2)).trans (by rw [o0]; rfl)) (win1_6.rect_emb_val_of_index_zero t (1 : Fin 2) o1 _)
  refine (oblk_apply _ _ _ _ _ _ p q).trans ?_
  rw [h2, h3, h4, h5, View.read_apply, h6]
  exact G_row _ _ _ _ _ _ _ _ p ⟨_, hr⟩ h0 h1 q

theorem cover (i : S50000x128.Idx) : ∃ t : Fin cfg1.N, (cfg1.win 6).flush t = true ∧ i ∈ ((cfg1.win 6).blk t).view.set := by
  have hlt : (i 0).val / 2000 < cfg1.N := by have := idx2_lt0 i; rw [show cfg1.N = 25 from N_1]; omega
  obtain ⟨-, -, -, -, -, -, -, -, e0, e1⟩ := idx_facts ⟨_, hlt⟩
  refine ⟨⟨_, hlt⟩, flush1_6 _, ?_⟩
  rw [show ((cfg1.win 6).blk ⟨_, hlt⟩).view.set = (win1_6.rect ⟨_, hlt⟩).set from View.set_slice_whole main_v29 _]
  exact mem_rowTile i _ _ _ (congrArg (· * 2000) e0) ((congrArg (· * 128) e1).trans (Nat.zero_mul _)) rfl rfl

theorem out1 (c : Dev nD) : ((Reg1.dat V c).arrAt 6 cfg1.N : Spec.Mat 50000 128) = Spec.scaleRows (Spec.mm (Spec.lrelu (Spec.layerNorm (Ideal.ofBits .f32 0x43800000#32) (Spec.addRow (Spec.scaleRows (V c main_v28) (fun r => V c main_v17 (ix2 r 0))) (V c main_arg8)) (V c main_arg5) (V c main_arg6))) (V c main_arg11)) (fun r => V c main_v17 (ix2 r 0)) :=
  (Reg1.dat V c).arrAt_eq_of_cover 6 _ (fun t _ => flushed_eq V c t) cover

end Cert.KernelIdeal.Val1

end
-- ==== Proof.Alg.Pool.lean ====
import proofs.«411879_j309237646134_3_alg».proof.Proof.Spec
import Idealize.ShloMosaic.Lib.StableHlo.Predicate

noncomputable section

namespace Cert.Alg

open Idealize.ShloMosaic Idealize.ShloMosaic.ValueIdx

def rowAt (t : Fin 25) (p : Fin 2000) : Fin 50000 := ⟨2000 * t.val + p.val, by omega⟩

def tileSum {d : ℕ} (X : Spec.Mat 50000 d) (oh : Fin 50000 → Fin 512 → EReal) (t : Fin 25) : Spec.Mat 512 d :=
  fun i => (∑ p : Fin 2000, oh (rowAt t p) (i 0) * X (ix2 (rowAt t p) (i 1)))
    + ∑ p : Fin 2000, oh (rowAt t p) (i 0) * (X (ix2 (rowAt t p) (i 1)) - X (ix2 (rowAt t p) (i 1)))

def accTiles {d : ℕ} (X : Spec.Mat 50000 d) (oh : Fin 50000 → Fin 512 → EReal) : ℕ → Spec.Mat 512 d
  | 0 => fun _ => 0
  | t + 1 => fun i => accTiles X oh t i + (if h : t < 25 then tileSum X oh ⟨t, h⟩ i else 0)

-- the pairs (tile, place) are the rows, once each
def tileEquiv : Fin 25 × Fin 2000 ≃ Fin 50000 where
  toFun x := rowAt x.1 x.2
  invFun r := (⟨r.val / 2000, by have := r.isLt; omega⟩, ⟨r.val % 2000, by omega⟩)
  left_inv x := by
    rcases x with ⟨⟨t, ht⟩, ⟨p, hp⟩⟩
    refine Prod.ext (Fin.ext ?_) (Fin.ext ?_)
    · show (2000 * t + p) / 2000 = t
      omega
    · show (2000 * t + p) % 2000 = p
      omega
  right_inv r := by
    apply Fin.ext
    show 2000 * (r.val / 2000) + r.val % 2000 = r.val
    omega

theorem sum_tiles (f : Fin 50000 → EReal) : ∑ t : Fin 25, ∑ p : Fin 2000, f (rowAt t p) = ∑ r : Fin 50000, f r :=
  (Fintype.sum_prod_type' (fun t p => f (rowAt t p))).symm.trans
    (Fintype.sum_equiv tileEquiv _ _ (fun _ => rfl))

theorem accTiles_all {d : ℕ} (X : Spec.Mat 50000 d) (oh : Fin 50000 → Fin 512 → EReal) (i : (⟨2, ![512, d]⟩ : Shape).Idx) :
    accTiles X oh 25 i = ∑ t : Fin 25, tileSum X oh t i := by
  have h (n : ℕ) : accTiles X oh n i = ∑ t ∈ Finset.range n, (if h : t < 25 then tileSum X oh ⟨t, h⟩ i else 0) := by
    induction n with
    | zero => rw [Finset.sum_range_zero]; rfl
    | succ n ih => rw [Finset.sum_range_succ, ← ih]; rfl
  rw [h, Finset.sum_range]
  exact Finset.sum_congr rfl fun t _ => dif_pos t.isLt

-- on reals the difference term vanishes, the 0/1 factor keeps the rows whose word reads `g`, and the tiles are all the rows
theorem accTiles_pool {d : ℕ} (X : Spec.Mat 50000 d) (gidW : Fin 50000 → BitVec 32) (oh : Fin 50000 → Fin 512 → EReal)
    (hoh : ∀ r (g : Fin 512), oh r g = if gidW r = BitVec.ofNat 32 g.val then (1 : EReal) else 0)
    (hfin : ∀ i, ∃ x : ℝ, X i = (x : EReal)) (g : Fin 500) (j : Fin d) :
    accTiles X oh 25 (ix2 ⟨g.val, by omega⟩ j) = Spec.pool (G := 500) X (fun r => (gidW r).toInt) (ix2 g j) := by
  have hg : g.val < 512 := by omega
  have hw (w : BitVec 32) : w = BitVec.ofNat 32 g.val ↔ w.toInt = (g.val : ℤ) := by
    have h := StableHlo.Predicate.toInt_ofNat_small g.val (by omega)
    exact ⟨fun e => e ▸ h, fun e => BitVec.eq_of_toInt_eq (e.trans h.symm)⟩
  have key (r : Fin 50000) : oh r ⟨g.val, hg⟩ * X (ix2 r j) + oh r ⟨g.val, hg⟩ * (X (ix2 r j) - X (ix2 r j))
      = if (gidW r).toInt = (g.val : ℤ) then X (ix2 r j) else 0 := by
    obtain ⟨x, hx⟩ := hfin (ix2 r j)
    rw [hoh, hx, ← EReal.coe_sub, sub_self, EReal.coe_zero, mul_zero, add_zero]
    simp only [hw]
    split_ifs <;> simp
  rw [accTiles_all]
  show ∑ t : Fin 25, ((∑ p : Fin 2000, oh (rowAt t p) ⟨g.val, hg⟩ * X (ix2 (rowAt t p) j))
      + ∑ p : Fin 2000, oh (rowAt t p) ⟨g.val, hg⟩ * (X (ix2 (rowAt t p) j) - X (ix2 (rowAt t p) j)))
    = ∑ r ∈ Finset.univ.filter (fun r : Fin 50000 => (gidW r).toInt = (g.val : ℤ)), X (ix2 r j)
  simp only [← Finset.sum_add_distrib, key]
  rw [Finset.sum_filter]
  exact sum_tiles fun r => if (gidW r).toInt = (g.val : ℤ) then X (ix2 r j) else 0

end Cert.Alg
-- ==== Proof.KI.Val2.lean ====
import proofs.«411879_j309237646134_3_alg».proof.Proof.KI.Reg2
import proofs.«411879_j309237646134_3_alg».proof.Proof.Alg.Pool
import proofs.«411879_j309237646134_3_alg».proof.Proof.KI.Val0

noncomputable section

namespace Cert.KernelIdeal.Val2

open Cert Cert.KernelIdeal Cert.KernelIdeal.Gen Cert.KernelIdeal.Val0
open Idealize.ShloMosaic Idealize.ShloMosaic.TcCoe Idealize.ShloMosaic.ValueIdx

/-- The first result over arrays of n rows: LayerNorm of the scaled, biased rows, rectified, each row divided by its length. -/
def T {n : ℕ} (A : Spec.Mat n 128) (s : Fin n → EReal) (b g β : Spec.Vec1 128) : Spec.Mat n 128 :=
  Spec.l2norm (Spec.lrelu (Spec.layerNorm (Ideal.ofBits .f32 0x43000000#32) (Spec.addRow (Spec.scaleRows A s) b) g β))

theorem pay4_eq (v3 : Vec Ideal S2000x128 .f32) (v5 : Vec Ideal S2000x1 .f32) (v9 v31 v35 : Vec Ideal S128 .f32) :
    k2_pay4 v3 v5 v9 v31 v35 =
      Spec.layerNorm (Ideal.ofBits .f32 0x43000000#32) (Spec.addRow (Spec.scaleRows v3 (fun r => v5 (ix2 r 0))) v9) v31 v35 := by
  funext i
  obtain ⟨p, q, rfl⟩ : ∃ (p : Fin 2000) (q : Fin 128), i = ix2 p q := ⟨i 0, i 1, eq_ix2 i⟩
  unfold k2_pay4
  simp only [addf_apply, mulf_apply, subf_apply, divf_apply, rsqrt_apply, broadcast_apply, rowOf_apply,
    LibColumn.broadcastTo_a1_ab_apply, shapeCast_self, LibColumn.shapeCast_a_a1_apply]
  rw [rowSum_apply, rowSum_apply]
  simp only [addf_apply, mulf_apply, subf_apply, divf_apply, broadcast_apply, rowOf_apply,
    LibColumn.broadcastTo_a1_ab_apply, shapeCast_self, LibColumn.shapeCast_a_a1_apply]
  rw [rowSum_apply]
  simp only [addf_apply, mulf_apply, rowOf_apply, LibColumn.broadcastTo_a1_ab_apply, shapeCast_self]
  rfl

theorem haOf_eq (x0 : Vec Ideal S2000x128 .f32) (x1 : Vec Ideal S2000x1 .f32) (x2 x3 x4 : Vec Ideal S128 .f32) :
    Reg2.haOf x0 x1 x2 x3 x4 = T x0 (fun r => x1 (ix2 r 0)) x2 x3 x4 := by
  unfold T
  rw [← pay4_eq]
  funext i
  obtain ⟨p, q, rfl⟩ : ∃ (p : Fin 2000) (q : Fin 128), i = ix2 p q := ⟨i 0, i 1, eq_ix2 i⟩
  unfold Reg2.haOf Reg2.lnRows Reg2.lnSign k2_pay1 k2_pay5 k2_pay6
  simp only [divf_apply, LibColumn.broadcastTo_a1_ab_apply, maximumf_apply, sqrt_apply, broadcast_apply,
    LibColumn.shapeCast_a_a1_apply]
  rw [rowSum_apply]
  simp only [mulf_apply, select_apply, cmpf_apply, broadcast_apply, leaky_select]
  rfl

/-- Entry (r, j) of T reads row r of A and the weight s r alone. -/
theorem T_row {n m : ℕ} (A : Spec.Mat n 128) (s : Fin n → EReal) (A' : Spec.Mat m 128) (s' : Fin m → EReal)
    (b g β : Spec.Vec1 128) (r : Fin n) (r' : Fin m) (hA : ∀ k, A (ix2 r k) = A' (ix2 r' k)) (hs : s r = s' r') (j : Fin 128) :
    T A s b g β (ix2 r j) = T A' s' b g β (ix2 r' j) := by
  show T (fun i : (⟨2, ![1, 128]⟩ : Shape).Idx => A (ix2 r (i 1))) (fun _ => s r) b g β (ix2 (0 : Fin 1) j)
    = T (fun i : (⟨2, ![1, 128]⟩ : Shape).Idx => A' (ix2 r' (i 1))) (fun _ => s' r') b g β (ix2 (0 : Fin 1) j)
  rw [hs, show (fun i : (⟨2, ![1, 128]⟩ : Shape).Idx => A (ix2 r (i 1))) = fun i => A' (ix2 r' (i 1)) from funext fun i => hA (i 1)]

theorem pool_mm (A : FVec Ideal S2000x512 .bf16) (B : FVec Ideal S2000x128 .bf16) (g : Fin 512) (j : Fin 128) :
    matmul dot_S2000x512_S2000x128_S512x128_0_0_1_1_n_n none A B (constant (F := Ideal) S512x128 .f32 0x00000000#32) (ix2 g j)
      = ∑ p : Fin 2000, A (ix2 p g) * B (ix2 p j) :=
  matmul_sum _ 2000 rfl rfl A B _ _ _ (fun _ => Shape.idx_ext₂ rfl rfl) fun _ => Shape.idx_ext₂ rfl rfl

/-- The 0/1 factor of the pooled product: the float of the one-bit answer to "is the row's graph word the word of g". -/
def ohW (w : BitVec 32) (g : Fin 512) : EReal :=
  FloatOps.sitofp (F := Ideal) .f32 ((IntOp.cmpi .eq w (BitVec.ofNat 32 g.val)).setWidth 32)

theorem ohW_eq (w : BitVec 32) (g : Fin 512) : ohW w g = if w = BitVec.ofNat 32 g.val then (1 : EReal) else 0 := by
  unfold ohW IntOp.cmpi
  show ((((BitVec.ofBool (w == BitVec.ofNat 32 g.val)).setWidth 32).toInt : ℝ) : EReal) = _
  by_cases h : w = BitVec.ofNat 32 g.val
  · rw [if_pos h, beq_iff_eq.2 h, show ((BitVec.ofBool true).setWidth 32).toInt = 1 by decide]; norm_num
  · rw [if_neg h, beq_eq_false_iff_ne.2 h, show ((BitVec.ofBool false).setWidth 32).toInt = 0 by decide]; norm_num

theorem cmpi_apply {s : Shape} {w : ℕ} (p : CmpIPredicate) (a b : IVec s w) (i : s.Idx) : cmpi p a b i = IntOp.cmpi p (a i) (b i) := rfl

/-- The accumulator's step at (g, j) adds the sum over the 2000 rows of the 0/1 factor times the first result's block, and of the factor times the block minus itself. -/
theorem step_apply (x0 : Vec Ideal S2000x128 .f32) (x1 : Vec Ideal S2000x1 .f32) (x2 x3 x4 : Vec Ideal S128 .f32)
    (w : Vec Ideal S2000x1 .i32) (acc : Vec Ideal S512x128 .f32) (g : Fin 512) (j : Fin 128) :
    Reg2.stepOf x0 x1 x2 x3 x4 w acc (ix2 g j) = acc (ix2 g j) +
      ((∑ p : Fin 2000, ohW (w (ix2 p 0)) g * Reg2.haOf x0 x1 x2 x3 x4 (ix2 p j))
        + ∑ p : Fin 2000, ohW (w (ix2 p 0)) g * (Reg2.haOf x0 x1 x2 x3 x4 (ix2 p j) - Reg2.haOf x0 x1 x2 x3 x4 (ix2 p j))) := by
  unfold Reg2.stepOf k2_pay2
  simp only [shapeCast_self, addf_apply, pool_mm, truncf_apply, sitofp_apply, extui_apply, cmpi_apply, subf_apply,
    LibColumn.broadcastTo_a1_ab_apply, iota_single_apply .tc S2000x512 32 1 iota_S2000x512_d1_w32]
  rfl

variable (V : (c : Dev nD) → (b : Ref sig .tc) → Buf (Elt Ideal) ((c : Thread nD τ).loc b))

def HA (c : Dev nD) : Spec.Mat 50000 128 :=
  Spec.l2norm (Spec.lrelu (Spec.layerNorm (Ideal.ofBits .f32 0x43000000#32)
    (Spec.addRow (Spec.scaleRows (V c main_v39) (fun r => V c main_v17 (ix2 r 0))) (V c main_arg12))
    (V c main_arg9) (V c main_arg10)))

theorem point_lt (t : Fin cfg2.N) : t.val < 25 := Nat.lt_of_lt_of_eq t.isLt Gen.N_2

/-- Row p of point t's block is row 2000 t + p of the array. -/
abbrev rowOf (t : Fin cfg2.N) (p : Fin 2000) : Fin 50000 := ⟨2000 * t.val + p.val, by have := point_lt t; omega⟩

theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ (∀ a : Fin 1, win2_2.index t a = 0) ∧ (∀ a : Fin 1, win2_3.index t a = 0) ∧ (∀ a : Fin 1, win2_4.index t a = 0)
    ∧ win2_5.index t (0 : Fin 2) = t.val ∧ win2_5.index t (1 : Fin 2) = 0
    ∧ win2_6.index t (0 : Fin 2) = t.val ∧ win2_6.index t (1 : Fin 2) = 0
    ∧ (∀ a : Fin 2, win2_7.index t a = 0) :=
  (by decide +kernel : ∀ t : Fin grid2.N, _)

/-- The first result's block after point t, at (p, j), is HA at row 2000 t + p, column j. -/
theorem haBlk_apply (c : Dev nD) (t : Fin cfg2.N) (p : Fin 2000) (j : Fin 128) :
    Reg2.haOf (Reg2.iblk V c 0 t) (Reg2.iblk V c 1 t) (Reg2.iblk V c 2 t) (Reg2.iblk V c 3 t) (Reg2.iblk V c 4 t) (ix2 p j)
      = HA V c (ix2 (rowOf t p) j) := by
  obtain ⟨e00, e01, e10, e11, e2, e3, e4, -⟩ := idx_facts t
  have h0 : ∀ k : Fin 128, (Reg2.iblk V c 0 t : Vec Ideal S2000x128 .f32) (ix2 p k) = V c main_v39 (ix2 (rowOf t p) k) := fun k =>
    congrArg (V c main_v39) (Shape.idx_ext₂ ((win2_0.rect_emb_val t _ (0 : Fin 2)).trans (by rw [e00, Nat.mul_comm]; rfl))
      (win2_0.rect_emb_val_of_index_zero t (1 : Fin 2) e01 _))
  have h1 : (Reg2.iblk V c 1 t : Vec Ideal S2000x1 .f32) (ix2 p 0) = V c main_v17 (ix2 (rowOf t p) 0) :=
    congrArg (V c main_v17) (Shape.idx_ext₂ ((win2_1.rect_emb_val t _ (0 : Fin 2)).trans (by rw [e10, Nat.mul_comm]; rfl))
      (win2_1.rect_emb_val_of_index_zero t (1 : Fin 2) e11 _))
  have h2 : (Reg2.iblk V c 2 t : Vec Ideal S128 .f32) = V c main_arg12 := funext fun y =>
    congrArg (V c main_arg12) (funext fun a => Fin.ext (win2_2.rect_emb_val_of_index_zero t a (e2 a) y))
  have h3 : (Reg2.iblk V c 3 t : Vec Ideal S128 .f32) = V c main_arg9 := funext fun y =>
    congrArg (V c main_arg9) (funext fun a => Fin.ext (win2_3.rect_emb_val_of_index_zero t a (e3 a) y))
  have h4 : (Reg2.iblk V c 4 t : Vec Ideal S128 .f32) = V c main_arg10 := funext fun y =>
    congrArg (V c main_arg10) (funext fun a => Fin.ext (win2_4.rect_emb_val_of_index_zero t a (e4 a) y))
  rw [haOf_eq, h2, h3, h4]
  exact T_row _ _ _ _ _ _ _ p (rowOf t p) h0 h1 j

/-- The graph word of row p of point t's block is the array's at row 2000 t + p. -/
theorem gid_apply (c : Dev nD) (t : Fin cfg2.N) (p : Fin 2000) :
    (Reg2.iblk V c 5 t : Vec Ideal S2000x1 .i32) (ix2 p 0) = V c main_v40 (ix2 (rowOf t p) 0) := by
  obtain ⟨-, -, -, -, -, -, -, e50, e51, -⟩ := idx_facts t
  exact congrArg (V c main_v40) (Shape.idx_ext₂ ((win2_5.rect_emb_val t _ (0 : Fin 2)).trans (by rw [e50, Nat.mul_comm]; rfl))
    (win2_5.rect_emb_val_of_index_zero t (1 : Fin 2) e51 _))

theorem flushed6_eq (c : Dev nD) (t : Fin cfg2.N) :
    (Reg2.dat V c).flushed 6 t = ((cfg2.win 6).blk t).view.read (Elt Ideal) (HA V c) := by
  show (cfg2.win 6).cut (grid2.coords t) ((Reg2.dat V c).after 6 t) = _
  rw [Reg2.after_6']
  obtain ⟨-, -, -, -, -, -, -, -, -, e60, e61, -⟩ := idx_facts t
  funext y
  obtain ⟨p, j, rfl⟩ : ∃ (p : Fin 2000) (j : Fin 128), y = ix2 p j := ⟨y 0, y 1, eq_ix2 y⟩
  exact (haBlk_apply V c t p j).trans (congrArg (HA V c) (Shape.idx_ext₂
    ((win2_6.rect_emb_val t _ (0 : Fin 2)).trans (by rw [e60, Nat.mul_comm]; rfl)) (win2_6.rect_emb_val_of_index_zero t (1 : Fin 2) e61 _)).symm)

theorem cover6 (i : S50000x128.Idx) :
    ∃ t : Fin cfg2.N, (cfg2.win 6).flush t = true ∧ i ∈ ((cfg2.win 6).blk t).view.set := by
  have hlt : (i 0).val / 2000 < cfg2.N := by have := idx2_lt0 i; rw [show cfg2.N = 25 from Gen.N_2]; omega
  obtain ⟨-, -, -, -, -, -, -, -, -, e0, e1, -⟩ := idx_facts ⟨_, hlt⟩
  refine ⟨⟨_, hlt⟩, Gen.flush2_6 _, ?_⟩
  rw [show ((cfg2.win 6).blk ⟨_, hlt⟩).view.set = (win2_6.rect ⟨_, hlt⟩).set from View.set_slice_whole main_v41_0 _]
  exact mem_rowTile i _ _ _ (congrArg (· * 2000) e0) ((congrArg (· * 128) e1).trans (Nat.zero_mul _)) rfl rfl

theorem out_ha (c : Dev nD) : ((Reg2.dat V c).arrAt 6 cfg2.N : Spec.Mat 50000 128) = HA V c :=
  (Reg2.dat V c).arrAt_eq_of_cover 6 _ (fun t _ => flushed6_eq V c t) cover6

/-- The 0/1 factor of row r and graph number g, from the array of graph words. -/
def oh (c : Dev nD) (r : Fin 50000) (g : Fin 512) : EReal := ohW (V c main_v40 (ix2 r 0)) g

/-- The accumulator after the first n points is the sum, tile by tile from zero, of the tiles' pooled terms of HA. -/
theorem acc_eq (c : Dev nD) : ∀ n : ℕ, n ≤ 25 →
    (Reg2.accAt V c n : Spec.Mat 512 128) = Alg.accTiles (HA V c) (oh V c) n
  | 0, _ => funext fun i => (congrFun (shapeCast_self (broadcast S512x128 (Scalar.ofBits (F := Ideal) .f32 0x00000000#32))
      shapeCasts_S512x128_S512x128) i).trans Ideal.ofBits_zero_f32
  | n + 1, h => by
    have hn : n < cfg2.N := by rw [show cfg2.N = 25 from Gen.N_2]; omega
    funext i
    obtain ⟨g, j, rfl⟩ : ∃ (g : Fin 512) (j : Fin 128), i = ix2 g j := ⟨i 0, i 1, eq_ix2 i⟩
    rw [Reg2.accAt_succ V c ⟨n, hn⟩]
    unfold Reg2.step
    rw [step_apply, acc_eq c n (by omega)]
    simp only [haBlk_apply, gid_apply]
    show _ = Alg.accTiles (HA V c) (oh V c) n (ix2 g j)
      + (if h' : n < 25 then Alg.tileSum (HA V c) (oh V c) ⟨n, h'⟩ (ix2 g j) else 0)
    rw [dif_pos (by omega : n < 25)]
    rfl

/-- The second result's one block is the whole array, so after the last point the array holds the accumulator after all 25 points. -/
theorem pooled_apply (c : Dev nD) (g : Fin 512) (j : Fin 128) :
    ((Reg2.dat V c).arrAt 7 cfg2.N : Spec.Mat 512 128) (ix2 g j) = (Reg2.accAt V c 25 : Spec.Mat 512 128) (ix2 g j) := by
  obtain ⟨-, -, -, -, -, -, -, -, -, -, -, e7⟩ := idx_facts Reg2.tLast
  have hemb : ((cfg2.win 7).blk Reg2.tLast).view.emb (ix2 g j) = ix2 g j :=
    funext fun a => Fin.ext (win2_7.rect_emb_val_of_index_zero Reg2.tLast a (e7 a) _)
  have h := View.write_emb_of_mem (v := ((cfg2.win 7).blk Reg2.tLast).view) (Val := Elt Ideal)
    (V c (Pipeline.arrRef spec2 7)) (Reg2.accAt V c 25) (Finset.mem_univ (ix2 g j))
  rw [hemb] at h
  rw [Reg2.arrAt_pooled]
  exact h

theorem out_pool (c : Dev nD) (hfin : ∀ i, ∃ x : ℝ, HA V c i = (x : EReal)) (g : Fin 500) (j : Fin 128) :
    ((Reg2.dat V c).arrAt 7 cfg2.N : Spec.Mat 512 128) (ix2 ⟨g.val, by omega⟩ j)
      = Spec.pool (G := 500) (HA V c) (fun r => (V c main_v40 (ix2 r 0)).toInt) (ix2 g j) := by
  rw [pooled_apply V c ⟨g.val, by omega⟩ j, acc_eq V c 25 le_rfl]
  exact Alg.accTiles_pool (HA V c) (fun r => V c main_v40 (ix2 r 0)) (oh V c) (fun r g' => ohW_eq _ g') hfin g j

end Cert.KernelIdeal.Val2

end
-- ==== Proof.Alg.HostRead.lean ====
import proofs.«411879_j309237646134_3_alg».proof.Proof.Spec
import Idealize.ShloMosaic.PureOps.Ideal.Laws
import Idealize.ShloMosaic.Lib.ValueIdxRank1
import Idealize.ShloMosaic.Lib.StableHlo.Predicate
import Idealize.ShloMosaic.Lib.Pipeline.Value

noncomputable section

namespace Cert.Alg

open Idealize.ShloMosaic Idealize.ShloMosaic.ValueIdx

open Idealize.ShloMosaic.StableHlo.Predicate (ixP)

-- an update lands at `i` exactly when, on every axis, its start plus its window coordinate is `i`'s coordinate
theorem resultIdx?_eq_some {s si u : Shape} {w : ℕ} (d : ScatterDims s si u) (j : u.Idx) (idx : IVec si w) (i : s.Idx) :
    d.resultIdx? j idx = some i ↔ ∀ a, d.start j idx a + d.window j a = ((i a).val : ℤ) := by
  unfold ScatterDims.resultIdx?
  split
  · next h =>
    simp only [Option.some.injEq, funext_iff, Fin.ext_iff]
    exact forall_congr' fun a => by have := h a; omega
  · next h =>
    refine iff_of_false (by simp) fun h' => h fun a => ?_
    have := (i a).isLt
    rw [h' a]; omega

theorem scatterAdd_rows {N D E w : ℕ} {φ : FTy} (d : ScatterDims ⟨2, ![N, D]⟩ ⟨2, ![E, 1]⟩ ⟨2, ![E, D]⟩)
    (huw : d.updateWindowDims = [1]) (hiw : d.insertedWindowDims = [0]) (hsd : d.scatterDimsToOperandDims = [0])
    (hiv : d.indexVectorDim = 1)
    (x : FVec Ideal ⟨2, ![N, D]⟩ φ) (idx : IVec ⟨2, ![E, 1]⟩ w) (upd : FVec Ideal ⟨2, ![E, D]⟩ φ) (r : Fin N) (j : Fin D) :
    Host.scatterAdd d x idx upd (ix2 r j)
      = x (ix2 r j) + ∑ e ∈ Spec.into (fun e : Fin E => (idx (ix2 e 0)).toInt) r, upd (ix2 e j) := by
  obtain ⟨uw, iw, sd, iv, wf⟩ := d
  dsimp only at huw hiw hsd hiv
  subst huw hiw hsd hiv
  set S : ScatterDims ⟨2, ![N, D]⟩ ⟨2, ![E, 1]⟩ ⟨2, ![E, D]⟩ := ⟨[1], [0], [0], 1, wf⟩
  have hkey (e : Fin E) (c : Fin D) :
      S.resultIdx? (ix2 e c) idx = some (ix2 r j) ↔ (idx (ix2 e 0)).toInt = (r.val : ℤ) ∧ c = j := by
    have hsi : S.siIdx (ix2 e c) ⟨List.idxOf (0 : Fin 2) S.scatterDimsToOperandDims,
        List.idxOf_lt_length_iff.2 (List.mem_singleton.mpr rfl)⟩ = ix2 e 0 := by
      funext b; refine Fin.ext ?_
      match b with
      | ⟨0, _⟩ => rfl
      | ⟨1, _⟩ => rfl
    have hs0 : S.start (ix2 e c) idx 0 = (idx (ix2 e 0)).toInt :=
      (dif_pos (List.mem_singleton.mpr rfl)).trans (by rw [hsi])
    have hs1 : S.start (ix2 e c) idx 1 = 0 := dif_neg (show (1 : Fin 2) ∉ [(0 : Fin 2)] by decide)
    have hw0 : S.window (ix2 e c) 0 = 0 :=
      dif_neg (show (0 : Fin 2) ∉ Shape.kept (⟨2, ![N, D]⟩ : Shape) [0] by simp [Shape.kept])
    have hw1 : S.window (ix2 e c) 1 = c.val :=
      dif_pos (show (1 : Fin 2) ∈ Shape.kept (⟨2, ![N, D]⟩ : Shape) [0] by simp [Shape.kept])
    rw [resultIdx?_eq_some, Fin.forall_fin_two, hs0, hs1, hw0, hw1, Fin.ext_iff]
    show _ + ((0 : ℕ) : ℤ) = (r.val : ℤ) ∧ (0 : ℤ) + (c.val : ℤ) = (j.val : ℤ) ↔ _
    omega
  show x _ + ∑ j' ∈ Finset.univ.filter (fun j' => S.resultIdx? j' idx = some (ix2 r j)), upd j' = _
  rw [Finset.sum_filter, sum_idx2, Spec.into, Finset.sum_filter]
  congr 1
  refine Finset.sum_congr rfl fun e _ => ?_
  simp only [hkey]
  by_cases h : (idx (ix2 e 0)).toInt = (r.val : ℤ) <;> simp [h]

theorem scatterAdd_scalars {N E w : ℕ} {φ : FTy} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![E, 1]⟩ w) (upd : FVec Ideal ⟨1, ![E]⟩ φ) (r : Fin N) :
    Host.scatterAdd d x idx upd (ix1 r)
      = x (ix1 r) + ∑ e ∈ Spec.into (fun e : Fin E => (idx (ix2 e 0)).toInt) r, upd (ix1 e) := by
  obtain ⟨uw, iw, sd, iv, wf⟩ := d
  dsimp only at huw hiw hsd hiv
  subst huw hiw hsd hiv
  set S : ScatterDims ⟨1, ![N]⟩ ⟨2, ![E, 1]⟩ ⟨1, ![E]⟩ := ⟨[], [0], [0], 1, wf⟩
  have hkey (e : Fin E) : S.resultIdx? (ix1 e) idx = some (ix1 r) ↔ (idx (ix2 e 0)).toInt = (r.val : ℤ) := by
    have hsi : S.siIdx (ix1 e) ⟨List.idxOf (0 : Fin 1) S.scatterDimsToOperandDims,
        List.idxOf_lt_length_iff.2 (List.mem_singleton.mpr rfl)⟩ = ix2 e 0 := by
      funext b; refine Fin.ext ?_
      match b with
      | ⟨0, _⟩ => rfl
      | ⟨1, _⟩ => rfl
    have hs0 : S.start (ix1 e) idx 0 = (idx (ix2 e 0)).toInt :=
      (dif_pos (List.mem_singleton.mpr rfl)).trans (by rw [hsi])
    have hw0 : S.window (ix1 e) 0 = 0 :=
      dif_neg (show (0 : Fin 1) ∉ Shape.kept (⟨1, ![N]⟩ : Shape) [0] by simp [Shape.kept])
    rw [resultIdx?_eq_some, Fin.forall_fin_one, hs0, hw0]
    show _ + ((0 : ℕ) : ℤ) = (r.val : ℤ) ↔ _
    omega
  show x _ + ∑ j' ∈ Finset.univ.filter (fun j' => S.resultIdx? j' idx = some (ix1 r)), upd j' = _
  rw [Finset.sum_filter, ← Equiv.sum_comp idxEquiv1.symm, Spec.into, Finset.sum_filter]
  congr 1
  refine Finset.sum_congr rfl fun e _ => ?_
  show (if S.resultIdx? (ix1 e) idx = some (ix1 r) then upd (ix1 e) else 0) = _
  simp only [hkey]

theorem gather_rows {α : Type} {N D E w : ℕ} (hN : 0 < N) (d : GatherDims ⟨2, ![N, D]⟩ ⟨2, ![E, 1]⟩ ⟨2, ![E, D]⟩)
    (hod : d.offsetDims = [1]) (hcs : d.collapsedSliceDims = [0]) (hob : d.operandBatchingDims = [])
    (hsim : d.startIndexMap = [0]) (hiv : d.indexVectorDim = 1)
    (x : (⟨2, ![N, D]⟩ : Shape).Idx → α) (idx : IVec ⟨2, ![E, 1]⟩ w) (e : Fin E) (j : Fin D) :
    Host.gather d x idx (ix2 e j) = x (ix2 ⟨min (idx (ix2 e 0)).toInt.toNat (N - 1), by omega⟩ j) := by
  obtain ⟨od, cs, ob, sb, sim, iv, ss, wf⟩ := d
  dsimp only at hod hcs hob hsim hiv
  subst hod hcs hob hsim hiv
  set G : GatherDims ⟨2, ![N, D]⟩ ⟨2, ![E, 1]⟩ ⟨2, ![E, D]⟩ := ⟨[1], [0], [], sb, [0], 1, ss, wf⟩
  have h10 : (1 : Fin 2) ∉ [(0 : Fin 2)] := by decide
  refine congrArg x (funext fun a => Fin.ext ?_)
  match a with
  | ⟨0, _⟩ =>
    have hsi : G.siIdx (ix2 e j) ⟨List.idxOf (0 : Fin 2) G.startIndexMap,
        List.idxOf_lt_length_iff.2 (List.mem_singleton.mpr rfl)⟩ = ix2 e 0 := by
      funext b; refine Fin.ext ?_
      match b with
      | ⟨0, _⟩ => rfl
      | ⟨1, _⟩ => rfl
    show G.start (ix2 e j) idx 0 + G.batchCoord (ix2 e j) 0 + G.offCoord (ix2 e j) 0 = min (idx (ix2 e 0)).toInt.toNat (N - 1)
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ G.startIndexMap from List.mem_singleton.mpr rfl), hsi,
      G.slice_collapsed 0 (List.mem_singleton.mpr rfl)]
    rfl
  | ⟨1, _⟩ =>
    have hst : G.start (ix2 e j) idx 1 = 0 := dif_neg h10
    have hoff : G.offCoord (ix2 e j) 1 = j.val :=
      (dif_pos ((GatherDims.mem_sKept G 1).2 ⟨h10, List.not_mem_nil⟩)).trans rfl
    show G.start (ix2 e j) idx 1 + G.batchCoord (ix2 e j) 1 + G.offCoord (ix2 e j) 1 = j.val
    rw [GatherDims.batchCoord_eq_zero _ _ _ List.not_mem_nil, hst, hoff]
    omega

private theorem ix1_eq_ofFin {n : ℕ} (p : Fin n) : ix1 p = Shape.Idx.ofFin p := by
  funext a; obtain rfl : a = 0 := Subsingleton.elim _ _; rfl

private theorem ix2_eq_ixP {n : ℕ} (p : Fin n) (z : Fin 1) : ix2 p z = ixP p := by
  funext a
  match a with
  | ⟨0, _⟩ => rfl
  | ⟨1, _⟩ => exact Subsingleton.elim (α := Fin 1) _ _

theorem gather_scalars {α : Type} {N E w : ℕ} (hN : 0 < N) (d : GatherDims ⟨1, ![N]⟩ ⟨2, ![E, 1]⟩ ⟨1, ![E]⟩)
    (hcs : d.collapsedSliceDims = [0]) (hob : d.operandBatchingDims = [])
    (hsim : d.startIndexMap = [0]) (hiv : d.indexVectorDim = 1)
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  simp only [ix1_eq_ofFin, ix2_eq_ixP]
  exact StableHlo.Predicate.gather_take d hcs hob hsim hiv x idx e hN

-- a word that reads negative has 50000 added; clamped into range, that is the node the word fetches
theorem nodeOf_wrap {s : Shape} (v c0 cN : IVec s 32) (h0 : ∀ i, c0 i = 0#32) (hN : ∀ i, cN i = 50000#32) (i : s.Idx)
    (h : min (select (cmpi .slt v c0) (addi v cN) v i).toInt.toNat (50000 - 1) < 50000) :
    (⟨min (select (cmpi .slt v c0) (addi v cN) v i).toInt.toNat (50000 - 1), h⟩ : Fin 50000) = Spec.nodeOf (v i) := by
  apply Fin.ext
  show min (Scalar.select (IntOp.cmpi .slt (v i) (c0 i)) (IntOp.addi (v i) (cN i)) (v i)).toInt.toNat (50000 - 1)
    = min ((if (v i).toInt < 0 then v i + 50000#32 else v i).toInt.toNat) 49999
  rw [h0, hN]
  unfold Scalar.select IntOp.cmpi IntOp.addi
  by_cases hs : (v i).toInt < 0 <;> simp [BitVec.slt, hs]

theorem concat_iota_edgeWord (hc : Shape.Concatenates [(⟨1, ![400000]⟩ : Shape), ⟨1, ![50000]⟩] ⟨1, ![450000]⟩ 0)
    (ei : (⟨2, ![2, 400000]⟩ : Shape).Idx → BitVec 32) (k : Fin 2)
    (a : IVec ⟨1, ![400000]⟩ 32) (ha : ∀ p : Fin 400000, a (ix1 p) = ei (ix2 k p)) (e : Fin 450000) :
    concatenate (⟨1, ![450000]⟩ : Shape) 0 [⟨⟨1, ![400000]⟩, a⟩, ⟨⟨1, ![50000]⟩, iotaInDim ⟨1, ![50000]⟩ 32 0⟩] hc (ix1 e)
      = Spec.edgeWord ei k e := by
  unfold Spec.edgeWord
  by_cases h : e.val < 400000
  · rw [dif_pos h, ← ha]
    exact concatenate_pair_apply_left (0 : Fin 1) a (iotaInDim ⟨1, ![50000]⟩ 32 0) hc (ix1 e) rfl (ix1 ⟨e.val, h⟩)
      (fun b => by obtain rfl : b = 0 := Subsingleton.elim _ _; rfl)
  · rw [dif_neg h]
    have h2 : e.val - 400000 < 50000 := by have := e.isLt; omega
    refine (concatenate_pair_apply_right (0 : Fin 1) a (iotaInDim ⟨1, ![50000]⟩ 32 0) hc (ix1 e) rfl rfl
      (ix1 ⟨e.val - 400000, h2⟩) (fun b hb => absurd (Subsingleton.elim _ _) hb) ?_).trans rfl
    show e.val - 400000 + 400000 = e.val
    omega

theorem dotGeneral_mm {n a b : ℕ} {φ₁ φ₂ : FTy} (d : DotDims ⟨2, ![n, a]⟩ ⟨2, ![a, b]⟩ ⟨2, ![n, b]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (X : FVec Ideal ⟨2, ![n, a]⟩ φ₁) (W : FVec Ideal ⟨2, ![a, b]⟩ φ₂) :
    (Host.dotGeneral d prec X W : Spec.Mat n b) = Spec.mm X W := by
  obtain ⟨lc, rc, ln, rn, lb, rb, wf⟩ := d
  dsimp only at hlc hrc hln hrn hlb hrb
  subst hlc hrc hln hrn hlb hrb
  funext i
  refine (Ideal.dotGeneral_apply _ prec .single X W i).trans ?_
  unfold Spec.mm
  rw [← Equiv.sum_comp (contrEquiv1 _ a rfl rfl).symm]
  refine Finset.sum_congr rfl fun k _ => ?_
  congr 2 <;> funext b <;> match b with | ⟨0, _⟩ => rfl | ⟨1, _⟩ => rfl

theorem reduceAdd_rows_zero {n d : ℕ} {φ : FTy} {u : Shape} (h : (⟨2, ![n, d]⟩ : Shape).ReducesTo [1] ⟨1, ![n]⟩)
    (hu : 0 < u.numel) (x : FVec Ideal ⟨2, ![n, d]⟩ φ) (init : u.Idx → Ideal φ) (hz : ∀ i, init i = 0) (r : Fin n) :
    Host.reduceAdd x init h hu (ix1 r) = ∑ k : Fin d, x (ix2 r k) := by
  refine (Ideal.hostReduceAdd_single h ⟨h.1, Nat.one_pos, h.2⟩ x (init (Shape.Idx.first hu)) (ix1 r)).trans ?_
  rw [hz, zero_add]
  refine Finset.sum_congr rfl fun k _ => congrArg x (funext fun b => ?_)
  match b with
  | ⟨0, _⟩ => rfl
  | ⟨1, _⟩ => rfl

theorem bcast_vec_rows {α : Type} {n b : ℕ} (h₁ : (⟨1, ![b]⟩ : Shape).BroadcastsInDim ⟨2, ![1, b]⟩ ![1])
    (h₂ : (⟨2, ![1, b]⟩ : Shape).BroadcastsInDim ⟨2, ![n, b]⟩ ![0, 1]) (v : (⟨1, ![b]⟩ : Shape).Idx → α) (p : Fin n) (q : Fin b) :
    broadcastInDim ⟨2, ![n, b]⟩ ![0, 1] h₂ (broadcastInDim ⟨2, ![1, b]⟩ ![1] h₁ v) (ix2 p q) = v (ix1 q) :=
  ix1_eq_ofFin q ▸ StableHlo.Predicate.bcast_cols h₁ h₂ v p q

theorem bcast_vec_col {α : Type} {n : ℕ} (h₁ : (⟨1, ![n]⟩ : Shape).BroadcastsInDim ⟨2, ![n, 1]⟩ ![0])
    (v : (⟨1, ![n]⟩ : Shape).Idx → α) (p : Fin n) (z : Fin 1) :
    broadcastInDim ⟨2, ![n, 1]⟩ ![0] h₁ v (ix2 p z) = v (ix1 p) := by
  rw [ix1_eq_ofFin, ix2_eq_ixP]
  exact StableHlo.Predicate.bcast_col1 h₁ v p

theorem bcast_col_mat {α : Type} {n d : ℕ} (h₂ : (⟨2, ![n, 1]⟩ : Shape).BroadcastsInDim ⟨2, ![n, d]⟩ ![0, 1])
    (v : (⟨2, ![n, 1]⟩ : Shape).Idx → α) (p : Fin n) (q : Fin d) :
    broadcastInDim ⟨2, ![n, d]⟩ ![0, 1] h₂ v (ix2 p q) = v (ix2 p 0) :=
  ix2_eq_ixP p 0 ▸ StableHlo.Predicate.bcast_of_col h₂ v p q

theorem bcast_vec_col_mat {α : Type} {n d : ℕ} (h₁ : (⟨1, ![n]⟩ : Shape).BroadcastsInDim ⟨2, ![n, 1]⟩ ![0])
    (h₂ : (⟨2, ![n, 1]⟩ : Shape).BroadcastsInDim ⟨2, ![n, d]⟩ ![0, 1]) (v : (⟨1, ![n]⟩ : Shape).Idx → α) (p : Fin n) (q : Fin d) :
    broadcastInDim ⟨2, ![n, d]⟩ ![0, 1] h₂ (broadcastInDim ⟨2, ![n, 1]⟩ ![0] h₁ v) (ix2 p q) = v (ix1 p) :=
  ix1_eq_ofFin p ▸ StableHlo.Predicate.bcast_rows h₁ h₂ v p q

theorem bcast_scalar_apply {α : Type} {t : Shape} (h : (⟨0, ![]⟩ : Shape).BroadcastsInDim t ![])
    (v : (⟨0, ![]⟩ : Shape).Idx → α) (j : t.Idx) : broadcastInDim t ![] h v j = v ix0 :=
  (StableHlo.Predicate.bcast_scalar h (by decide) v j).trans (congrArg v (eq_ix0 _))

end Cert.Alg

end
-- ==== Proof.Alg.Head.lean ====
import proofs.«411879_j309237646134_3_alg».proof.Proof.Spec
import proofs.«411879_j309237646134_3_alg».proof.Proof.Alg.HostRead
import Idealize.ShloMosaic.PureOps.Ideal
import Idealize.ShloMosaic.PureOps.Ideal.Laws
import Idealize.ShloMosaic.Lib.ValueIdx

noncomputable section

namespace Cert.Alg

open Idealize.ShloMosaic Idealize.ShloMosaic.ValueIdx

theorem leaky_select (y z s : EReal) (hz : z = 0) (hs : s = Spec.slope) :
    Scalar.select (Ideal.cmp .oge y z) y (s * y) = Spec.leaky y := by
  subst hz hs
  unfold Spec.leaky Scalar.select Ideal.cmp
  by_cases h : (0 : EReal) ≤ y <;> simp [h]

theorem lrelu_select {n b : ℕ} (Y zero sl : FVec Ideal ⟨2, ![n, b]⟩ .f32) (hz : ∀ i, zero i = 0)
    (hs : ∀ i, sl i = Spec.slope) :
    (select (cmpf .oge Y zero) Y (mulf sl Y) : Spec.Mat n b) = Spec.lrelu Y := by
  funext i
  exact leaky_select (Y i) (zero i) (sl i) (hz i) (hs i)

theorem dense_addRow {n a b : ℕ} (d : DotDims ⟨2, ![n, a]⟩ ⟨2, ![a, b]⟩ ⟨2, ![n, b]⟩)
    (hdlc : d.lhsContracting = [1]) (hdrc : d.rhsContracting = [0]) (hdln : d.lhsNonContracting = [0])
    (hdrn : d.rhsNonContracting = [1]) (hdlb : d.lhsBatch = []) (hdrb : d.rhsBatch = [])
    (h₁ : (⟨1, ![b]⟩ : Shape).BroadcastsInDim ⟨2, ![1, b]⟩ ![1])
    (h₂ : (⟨2, ![1, b]⟩ : Shape).BroadcastsInDim ⟨2, ![n, b]⟩ ![0, 1])
    (prec : Option ContractPrecision) (X : FVec Ideal ⟨2, ![n, a]⟩ .f32) (Wt : FVec Ideal ⟨2, ![a, b]⟩ .f32)
    (v : FVec Ideal ⟨1, ![b]⟩ .f32) :
    (addf (Host.dotGeneral d prec X Wt) (broadcastInDim ⟨2, ![n, b]⟩ ![0, 1] h₂ (broadcastInDim ⟨2, ![1, b]⟩ ![1] h₁ v))
        : Spec.Mat n b)
      = Spec.addRow (Spec.mm X Wt) v := by
  funext i
  obtain ⟨r, q, rfl⟩ : ∃ r q, i = ix2 r q := ⟨i 0, i 1, eq_ix2 i⟩
  show Host.dotGeneral d prec X Wt (ix2 r q) + broadcastInDim ⟨2, ![n, b]⟩ ![0, 1] h₂ (broadcastInDim ⟨2, ![1, b]⟩ ![1] h₁ v) (ix2 r q)
    = Spec.mm X Wt (ix2 r q) + v (ix1 q)
  rw [bcast_vec_rows h₁ h₂ v r q, ← dotGeneral_mm d hdlc hdrc hdln hdrn hdlb hdrb prec X Wt]

theorem headOf_chain {G : ℕ}
    (d : DotDims ⟨2, ![G, 128]⟩ ⟨2, ![128, 64]⟩ ⟨2, ![G, 64]⟩)
    (hdlc : d.lhsContracting = [1]) (hdrc : d.rhsContracting = [0]) (hdln : d.lhsNonContracting = [0])
    (hdrn : d.rhsNonContracting = [1]) (hdlb : d.lhsBatch = []) (hdrb : d.rhsBatch = [])
    (e : DotDims ⟨2, ![G, 64]⟩ ⟨2, ![64, 1]⟩ ⟨2, ![G, 1]⟩)
    (helc : e.lhsContracting = [1]) (herc : e.rhsContracting = [0]) (heln : e.lhsNonContracting = [0])
    (hern : e.rhsNonContracting = [1]) (helb : e.lhsBatch = []) (herb : e.rhsBatch = [])
    (hb₁ : (⟨1, ![64]⟩ : Shape).BroadcastsInDim ⟨2, ![1, 64]⟩ ![1])
    (hb₂ : (⟨2, ![1, 64]⟩ : Shape).BroadcastsInDim ⟨2, ![G, 64]⟩ ![0, 1])
    (hc₁ : (⟨1, ![1]⟩ : Shape).BroadcastsInDim ⟨2, ![1, 1]⟩ ![1])
    (hc₂ : (⟨2, ![1, 1]⟩ : Shape).BroadcastsInDim ⟨2, ![G, 1]⟩ ![0, 1])
    (p₁ p₂ : Option ContractPrecision)
    (P : FVec Ideal ⟨2, ![G, 128]⟩ .f32) (Wf1 : FVec Ideal ⟨2, ![128, 64]⟩ .f32) (bf1 : FVec Ideal ⟨1, ![64]⟩ .f32)
    (Wf2 : FVec Ideal ⟨2, ![64, 1]⟩ .f32) (bf2 : FVec Ideal ⟨1, ![1]⟩ .f32)
    (zero sl : FVec Ideal ⟨2, ![G, 64]⟩ .f32) (hz : ∀ i, zero i = 0) (hs : ∀ i, sl i = Spec.slope) :
    (addf
        (Host.dotGeneral e p₂
          (select
            (cmpf .oge (addf (Host.dotGeneral d p₁ P Wf1) (broadcastInDim ⟨2, ![G, 64]⟩ ![0, 1] hb₂ (broadcastInDim ⟨2, ![1, 64]⟩ ![1] hb₁ bf1))) zero)
            (addf (Host.dotGeneral d p₁ P Wf1) (broadcastInDim ⟨2, ![G, 64]⟩ ![0, 1] hb₂ (broadcastInDim ⟨2, ![1, 64]⟩ ![1] hb₁ bf1)))
            (mulf sl (addf (Host.dotGeneral d p₁ P Wf1) (broadcastInDim ⟨2, ![G, 64]⟩ ![0, 1] hb₂ (broadcastInDim ⟨2, ![1, 64]⟩ ![1] hb₁ bf1)))))
          Wf2)
        (broadcastInDim ⟨2, ![G, 1]⟩ ![0, 1] hc₂ (broadcastInDim ⟨2, ![1, 1]⟩ ![1] hc₁ bf2)) : Spec.Mat G 1)
      = Spec.headOf (P : Spec.Mat G 128) Wf1 bf1 Wf2 bf2 := by
  unfold Spec.headOf
  rw [← dense_addRow d hdlc hdrc hdln hdrn hdlb hdrb hb₁ hb₂ p₁ P Wf1 bf1,
    ← lrelu_select _ zero sl hz hs]
  exact dense_addRow e helc herc heln hern helb herb hc₁ hc₂ p₂ _ Wf2 bf2

theorem scatterAdd_pool {N D G w : ℕ} (d : ScatterDims ⟨2, ![G, D]⟩ ⟨2, ![N, 1]⟩ ⟨2, ![N, D]⟩)
    (huw : d.updateWindowDims = [1]) (hiw : d.insertedWindowDims = [0]) (hsd : d.scatterDimsToOperandDims = [0])
    (hiv : d.indexVectorDim = 1)
    (zero : FVec Ideal ⟨2, ![G, D]⟩ .f32) (hz : ∀ i, zero i = 0) (idx : IVec ⟨2, ![N, 1]⟩ w)
    (X : FVec Ideal ⟨2, ![N, D]⟩ .f32) :
    (Host.scatterAdd d zero idx X : Spec.Mat G D) = Spec.pool (X : Spec.Mat N D) (fun r => (idx (ix2 r 0)).toInt) := by
  funext i
  obtain ⟨g, j, rfl⟩ : ∃ g j, i = ix2 g j := ⟨i 0, i 1, eq_ix2 i⟩
  rw [scatterAdd_rows d huw hiw hsd hiv zero idx X g j, hz, zero_add]
  rfl

end Cert.Alg

end
-- ==== Proof.KI.ValHost.lean ====
import proofs.«411879_j309237646134_3_alg».proof.Proof.Gen.KernelIdeal.Regions
import proofs.«411879_j309237646134_3_alg».proof.Proof.Spec
import proofs.«411879_j309237646134_3_alg».proof.Proof.LibColumn
import proofs.«411879_j309237646134_3_alg».proof.Proof.Alg.HostRead
import proofs.«411879_j309237646134_3_alg».proof.Proof.Alg.Head
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.ValHost

open Cert.KernelIdeal Cert.KernelIdeal.Gen
open Idealize.ShloMosaic Idealize.ShloMosaic.TcCoe Idealize.ShloMosaic.ValueIdx

variable (m : (ℓ : Loc nD τ sig) → Buf (Elt Ideal) ℓ) (outs : Gen.Outs (F := Ideal))

abbrev ei (c : Dev nD) : (⟨2, ![2, 400000]⟩ : Shape).Idx → BitVec 32 := m (c, main_arg1)
abbrev src (c : Dev nD) : Fin 450000 → Fin 50000 := Spec.srcOf (ei m c)
abbrev dst (c : Dev nD) : Fin 450000 → ℤ := Spec.dstOf (ei m c)

/-- A reference that no stretch and no region before a point writes holds its launch contents there. -/
theorem kept3 (c : Dev nD) (r : Ref sig .tc) (h : r ∉ Gen.hostOps0_W ∧ r ∉ Gen.hostOps0_1_W ∧ r ∉ Gen.hostOps0_2_W) :
    Gen.V3 m c r = m (c, r) :=
  (Gen.V3_of m c r h.2.2).trans <| (Gen.V2_of m c r h.2.1).trans <| (Gen.V1_of m c r h.1).trans rfl

theorem kept5 (c : Dev nD) (r : Ref sig .tc) (h : (r ∉ Gen.hostOps0_W ∧ r ∉ Gen.hostOps0_1_W ∧ r ∉ Gen.hostOps0_2_W)
    ∧ r ∉ ([main_v18] : List (Ref sig .tc)) ∧ r ∉ Gen.hostOps1_W) :
    Gen.V5 m outs c r = m (c, r) :=
  (Gen.V5_of m outs c r h.2.2).trans <| (Gen.V4_of m outs c r h.2.1).trans <| kept3 m c r h.1

theorem kept7 (c : Dev nD) (r : Ref sig .tc) (h : ((r ∉ Gen.hostOps0_W ∧ r ∉ Gen.hostOps0_1_W ∧ r ∉ Gen.hostOps0_2_W)
    ∧ r ∉ ([main_v18] : List (Ref sig .tc)) ∧ r ∉ Gen.hostOps1_W) ∧ r ∉ ([main_v29] : List (Ref sig .tc)) ∧ r ∉ Gen.hostOps2_W) :
    Gen.V7 m outs c r = m (c, r) :=
  (Gen.V7_of m outs c r h.2.2).trans <| (Gen.V6_of m outs c r h.2.1).trans <| kept5 m outs c r h.1

theorem kept8 (c : Dev nD) (r : Ref sig .tc) (h : (((r ∉ Gen.hostOps0_W ∧ r ∉ Gen.hostOps0_1_W ∧ r ∉ Gen.hostOps0_2_W)
    ∧ r ∉ ([main_v18] : List (Ref sig .tc)) ∧ r ∉ Gen.hostOps1_W) ∧ r ∉ ([main_v29] : List (Ref sig .tc)) ∧ r ∉ Gen.hostOps2_W)
    ∧ r ∉ ([main_v41_0, main_v41_1] : List (Ref sig .tc))) :
    Gen.V8 m outs c r = m (c, r) :=
  (Gen.V8_of m outs c r h.2).trans <| kept7 m outs c r h.1

theorem kept3_arg0 (c : Dev nD) : Gen.V3 m c main_arg0 = m (c, main_arg0) := kept3 m c _ (by decide)
theorem kept3_arg3 (c : Dev nD) : Gen.V3 m c main_arg3 = m (c, main_arg3) := kept3 m c _ (by decide)
theorem kept3_arg4 (c : Dev nD) : Gen.V3 m c main_arg4 = m (c, main_arg4) := kept3 m c _ (by decide)
theorem kept3_arg7 (c : Dev nD) : Gen.V3 m c main_arg7 = m (c, main_arg7) := kept3 m c _ (by decide)

theorem kept5_arg5 (c : Dev nD) : Gen.V5 m outs c main_arg5 = m (c, main_arg5) := kept5 m outs c _ (by decide)
theorem kept5_arg6 (c : Dev nD) : Gen.V5 m outs c main_arg6 = m (c, main_arg6) := kept5 m outs c _ (by decide)
theorem kept5_arg8 (c : Dev nD) : Gen.V5 m outs c main_arg8 = m (c, main_arg8) := kept5 m outs c _ (by decide)
theorem kept5_arg11 (c : Dev nD) : Gen.V5 m outs c main_arg11 = m (c, main_arg11) := kept5 m outs c _ (by decide)

theorem kept7_arg9 (c : Dev nD) : Gen.V7 m outs c main_arg9 = m (c, main_arg9) := kept7 m outs c _ (by decide)
theorem kept7_arg10 (c : Dev nD) : Gen.V7 m outs c main_arg10 = m (c, main_arg10) := kept7 m outs c _ (by decide)
theorem kept7_arg12 (c : Dev nD) : Gen.V7 m outs c main_arg12 = m (c, main_arg12) := kept7 m outs c _ (by decide)

/-- The column of node weights is written once, before region 0, and stays. -/
theorem wcol5 (c : Dev nD) : Gen.V5 m outs c main_v17 = Gen.V3 m c main_v17 :=
  (Gen.V5_of m outs c main_v17 (by decide)).trans (Gen.V4_of m outs c main_v17 (by decide))
theorem wcol7 (c : Dev nD) : Gen.V7 m outs c main_v17 = Gen.V3 m c main_v17 :=
  (Gen.V7_of m outs c main_v17 (by decide)).trans <| (Gen.V6_of m outs c main_v17 (by decide)).trans (wcol5 m outs c)

theorem V4_v18 (c : Dev nD) : Gen.V4 m outs c main_v18 = outs 4 main_v18 c := by
  simp only [Gen.V4, Function.update_self]
theorem V6_v29 (c : Dev nD) : Gen.V6 m outs c main_v29 = outs 6 main_v29 c := by
  simp only [Gen.V6, Function.update_self]
theorem V8_v41_1 (c : Dev nD) : Gen.V8 m outs c main_v41_1 = outs 8 main_v41_1 c := by
  simp only [Gen.V8, Function.update_self]
theorem V8_v41_0 (c : Dev nD) : Gen.V8 m outs c main_v41_0 = outs 8 main_v41_0 c := by
  simp only [Gen.V8, Function.update_of_ne (StableHlo.devRef_ne_of_ne (by decide) : (Proc.devRef .tc main_v41_0 : DevRef τ sig) ≠ Proc.devRef .tc main_v41_1), Function.update_self]

/-- Row k of the edge list laid out as a vector and followed by the positions 0 … 49999: that row's edge words. -/
theorem word_of (k : Fin 2) (x : S2x400000.Idx → BitVec 32) (h : S2x400000.Slices ![k.val, 0] S1x400000) (e : Fin 450000) :
    concatenate S450000 0
      [⟨S400000, shapeCast S400000 (extractStridedSlice S1x400000 ![k.val, 0] x h) shapeCasts_S1x400000_S400000⟩,
       ⟨S50000, iotaInDim S50000 32 0⟩] concatenates_S400000_S50000_S450000_d0 (ix1 e) = Spec.edgeWord x k e :=
  Alg.concat_iota_edgeWord _ x k _
    (fun p => (shapeCast_1a_a_apply _ _ p).trans (slice2_axis0_apply k.val x h 0 p k (Nat.add_zero _).symm)) e

theorem v5_word (c : Dev nD) (e : Fin 450000) :
    (Gen.V1 m c main_v5 : S450000.Idx → BitVec 32) (ix1 e) = Spec.edgeWord (ei m c) 0 e := by
  dsimp only [Gen.V1, Gen.hostOps0]
  after_results
  exact word_of 0 _ _ e
theorem v6_word (c : Dev nD) (e : Fin 450000) :
    (Gen.V1 m c main_v6 : S450000.Idx → BitVec 32) (ix1 e) = Spec.edgeWord (ei m c) 1 e := by
  dsimp only [Gen.V1, Gen.hostOps0]
  after_results
  exact word_of 1 _ _ e

/-- Ones scattered onto zero by the end words: entry r is the in-degree of node r. -/
theorem deg_of (ds : ScatterDims (⟨1, ![50000]⟩ : Shape) ⟨2, ![450000, 1]⟩ ⟨1, ![450000]⟩)
    (hs1 : ds.updateWindowDims = []) (hs2 : ds.insertedWindowDims = [0]) (hs3 : ds.scatterDimsToOperandDims = [0])
    (hs4 : ds.indexVectorDim = 1)
    (hb0 : (⟨0, ![]⟩ : Shape).BroadcastsInDim ⟨1, ![50000]⟩ ![])
    (hb1 : (⟨1, ![450000]⟩ : Shape).BroadcastsInDim ⟨2, ![450000, 1]⟩ ![0])
    (hb2 : (⟨0, ![]⟩ : Shape).BroadcastsInDim ⟨1, ![450000]⟩ ![])
    (v6 : (⟨1, ![450000]⟩ : Shape).Idx → BitVec 32) (dst : Fin 450000 → ℤ) (h6 : ∀ e, (v6 (ix1 e)).toInt = dst e) (r : Fin 50000) :
    Host.scatterAdd (F := Ideal) ds
        (broadcastInDim ⟨1, ![50000]⟩ ![] hb0 (constant (F := Ideal) ⟨0, ![]⟩ .f32 0x00000000#32))
        (broadcastInDim ⟨2, ![450000, 1]⟩ ![0] hb1 v6)
        (broadcastInDim ⟨1, ![450000]⟩ ![] hb2 (constant (F := Ideal) ⟨0, ![]⟩ .f32 0x3F800000#32)) (ix1 r)
      = Spec.degree dst r := by
  refine (Alg.scatterAdd_scalars ds hs1 hs2 hs3 hs4 _ _ _ r).trans ?_
  unfold Spec.degree
  refine congrArg₂ (· + ·) (Alg.bcast_scalar_apply _ _ _) ?_
  refine Finset.sum_congr (congrArg (fun f => Spec.into f r) (funext fun e => ?_)) (fun e _ => Alg.bcast_scalar_apply _ _ _)
  rw [Alg.bcast_vec_col]
  exact h6 e

/-- Source rows fetched edge by edge (a negative word wrapped, the index clamped) and scattered onto zero by the end words: row r is the sum over the edges ending at r of the source node's row. -/
theorem agg_of {D : ℕ} (ds : ScatterDims (⟨2, ![50000, D]⟩ : Shape) ⟨2, ![450000, 1]⟩ ⟨2, ![450000, D]⟩)
    (hs1 : ds.updateWindowDims = [1]) (hs2 : ds.insertedWindowDims = [0]) (hs3 : ds.scatterDimsToOperandDims = [0])
    (hs4 : ds.indexVectorDim = 1)
    (dg : GatherDims (⟨2, ![50000, D]⟩ : Shape) ⟨2, ![450000, 1]⟩ ⟨2, ![450000, D]⟩)
    (hg1 : dg.offsetDims = [1]) (hg2 : dg.collapsedSliceDims = [0]) (hg3 : dg.operandBatchingDims = [])
    (hg4 : dg.startIndexMap = [0]) (hg5 : dg.indexVectorDim = 1)
    (hb0 : (⟨0, ![]⟩ : Shape).BroadcastsInDim ⟨2, ![50000, D]⟩ ![])
    (hb1 : (⟨1, ![450000]⟩ : Shape).BroadcastsInDim ⟨2, ![450000, 1]⟩ ![0])
    (hb2 : (⟨0, ![]⟩ : Shape).BroadcastsInDim ⟨1, ![450000]⟩ ![])
    (X : Spec.Mat 50000 D) (v5 v6 : (⟨1, ![450000]⟩ : Shape).Idx → BitVec 32) (x : (⟨2, ![2, 400000]⟩ : Shape).Idx → BitVec 32)
    (h5 : ∀ e, v5 (ix1 e) = Spec.edgeWord x 0 e) (h6 : ∀ e, v6 (ix1 e) = Spec.edgeWord x 1 e) (r : Fin 50000) (j : Fin D) :
    Host.scatterAdd (F := Ideal) ds
        (broadcastInDim ⟨2, ![50000, D]⟩ ![] hb0 (constant (F := Ideal) ⟨0, ![]⟩ .f32 0x00000000#32))
        (broadcastInDim ⟨2, ![450000, 1]⟩ ![0] hb1 v6)
        (Host.gather dg X (broadcastInDim ⟨2, ![450000, 1]⟩ ![0] hb1
          (select (cmpi .slt v5 (broadcastInDim ⟨1, ![450000]⟩ ![] hb2 (constantI ⟨0, ![]⟩ 32 0#32)))
            (addi v5 (broadcastInDim ⟨1, ![450000]⟩ ![] hb2 (constantI ⟨0, ![]⟩ 32 50000#32))) v5))) (ix2 r j)
      = Spec.agg X (Spec.srcOf x) (Spec.dstOf x) (ix2 r j) := by
  refine (Alg.scatterAdd_rows ds hs1 hs2 hs3 hs4 _ _ _ r j).trans ?_
  rw [Alg.bcast_scalar_apply]
  show Ideal.ofBits .f32 0x00000000#32 + _ = ∑ e ∈ Spec.into (Spec.dstOf x) r, X (ix2 (Spec.srcOf x e) j)
  rw [Ideal.ofBits_zero_f32, zero_add]
  refine Finset.sum_congr (congrArg (fun f => Spec.into f r) (funext fun e => ?_)) (fun e _ => ?_)
  · rw [Alg.bcast_vec_col]
    exact congrArg BitVec.toInt (h6 e)
  · refine (Alg.gather_rows (by decide) dg hg1 hg2 hg3 hg4 hg5 X _ e j).trans ?_
    refine congrArg (fun n => X (ix2 n j)) (Fin.ext ?_)
    show min _ (50000 - 1) = (Spec.srcOf x e).val
    rw [Alg.bcast_vec_col]
    have hw := Alg.nodeOf_wrap v5 (broadcastInDim ⟨1, ![450000]⟩ ![] hb2 (constantI ⟨0, ![]⟩ 32 0#32))
      (broadcastInDim ⟨1, ![450000]⟩ ![] hb2 (constantI ⟨0, ![]⟩ 32 50000#32))
      (fun i => Alg.bcast_scalar_apply hb2 _ i) (fun i => Alg.bcast_scalar_apply hb2 _ i) (ix1 e) (by omega)
    exact (congrArg Fin.val hw).trans (by rw [h5]; rfl)

theorem rsqrt_at {s : Shape} (x : FVec Ideal s .f32) (i : s.Idx) : Host.rsqrt x i = Ideal.rsqrt (x i) := rfl

theorem weight_select (D : EReal) :
    Scalar.select (Ideal.cmp .ogt D (Ideal.ofBits .f32 0x00000000#32))
        (Ideal.rsqrt (max D (Ideal.ofBits .f32 0x3F800000#32))) (Ideal.ofBits .f32 0x00000000#32)
      = if Ideal.ofBits .f32 0x00000000#32 < D then Ideal.rsqrt (max D (Ideal.ofBits .f32 0x3F800000#32))
        else Ideal.ofBits .f32 0x00000000#32 := by
  unfold Scalar.select Ideal.cmp
  show (if BitVec.ofBool (decide (Ideal.ofBits .f32 0x00000000#32 < D)) = 1#1 then _ else _) = _
  by_cases h : Ideal.ofBits .f32 0x00000000#32 < D
  · rw [if_pos h, decide_eq_true h]; rfl
  · rw [if_neg h, decide_eq_false h]; rfl

/-- Whether a node's in-degree is above zero. -/
theorem v12_at (c : Dev nD) (r : Fin 50000) :
    (Gen.V1 m c main_v12 : S50000.Idx → BitVec 1) (ix1 r)
      = Ideal.cmp .ogt (Spec.degree (dst m c) r) (Ideal.ofBits .f32 0x00000000#32) := by
  dsimp only [Gen.V1, Gen.hostOps0]
  after_results
  refine (cmpf_apply _ _ _ _).trans ((Ideal.cmpf_def _ _ _).trans (congrArg₂ (Ideal.cmp CmpFPredicate.ogt) ?_ (Alg.bcast_scalar_apply _ _ _)))
  exact deg_of _ rfl rfl rfl rfl _ _ _ _ _ (fun e => congrArg BitVec.toInt (word_of 1 _ _ e)) r

/-- The reciprocal square root of the in-degree floored at one. -/
theorem v15_at (c : Dev nD) (r : Fin 50000) :
    (Gen.V1 m c main_v15 : Spec.Vec1 50000) (ix1 r)
      = Ideal.rsqrt (max (Spec.degree (dst m c) r) (Ideal.ofBits .f32 0x3F800000#32)) := by
  dsimp only [Gen.V1, Gen.hostOps0]
  after_results
  refine (rsqrt_at _ _).trans (congrArg Ideal.rsqrt ((maximumf_apply _ _ _).trans (congrArg₂ max ?_ (Alg.bcast_scalar_apply _ _ _))))
  exact deg_of _ rfl rfl rfl rfl _ _ _ _ _ (fun e => congrArg BitVec.toInt (word_of 1 _ _ e)) r

theorem cst3_eq (c : Dev nD) :
    (Gen.V1 m c main_cst_3 : S_.Idx → EReal) = constant (F := Ideal) S_ .f32 0x00000000#32 := by
  dsimp only [Gen.V1, Gen.hostOps0]
  after_results

/-- The node weights as a vector, after the second stretch. -/
theorem v16_at (c : Dev nD) (r : Fin 50000) :
    (Gen.V2 m c main_v16 : Spec.Vec1 50000) (ix1 r) = Spec.weight (dst m c) r := by
  show StableHlo.after Gen.hostOps0_1 (Gen.V1 m c) (Proc.devRef .tc main_v16) (ix1 r) = _
  have h12 := v12_at m c r
  have h15 := v15_at m c r
  have h3 := cst3_eq m c
  generalize Gen.V1 m c = W at h12 h15 h3 ⊢
  unfold Gen.hostOps0_1
  after_results_simp
  simp only [StableHlo.TRef.ofBuf, StableHlo.TRef.toBuf, cast_eq]
  refine (select_apply _ _ _ _).trans ?_
  rw [h12, h15, Alg.bcast_scalar_apply, h3]
  exact weight_select _

theorem v5_at4 (c : Dev nD) (e : Fin 450000) :
    (Gen.V4 m outs c main_v5 : S450000.Idx → BitVec 32) (ix1 e) = Spec.edgeWord (ei m c) 0 e :=
  (congrFun ((Gen.V4_of m outs c main_v5 (by decide)).trans <| (Gen.V3_of m c main_v5 (by decide)).trans
    (Gen.V2_of m c main_v5 (by decide))) (ix1 e)).trans (v5_word m c e)
theorem v6_at4 (c : Dev nD) (e : Fin 450000) :
    (Gen.V4 m outs c main_v6 : S450000.Idx → BitVec 32) (ix1 e) = Spec.edgeWord (ei m c) 1 e :=
  (congrFun ((Gen.V4_of m outs c main_v6 (by decide)).trans <| (Gen.V3_of m c main_v6 (by decide)).trans
    (Gen.V2_of m c main_v6 (by decide))) (ix1 e)).trans (v6_word m c e)
theorem v5_at6 (c : Dev nD) (e : Fin 450000) :
    (Gen.V6 m outs c main_v5 : S450000.Idx → BitVec 32) (ix1 e) = Spec.edgeWord (ei m c) 0 e :=
  (congrFun ((Gen.V6_of m outs c main_v5 (by decide)).trans (Gen.V5_of m outs c main_v5 (by decide))) (ix1 e)).trans
    (v5_at4 m outs c e)
theorem v6_at6 (c : Dev nD) (e : Fin 450000) :
    (Gen.V6 m outs c main_v6 : S450000.Idx → BitVec 32) (ix1 e) = Spec.edgeWord (ei m c) 1 e :=
  (congrFun ((Gen.V6_of m outs c main_v6 (by decide)).trans (Gen.V5_of m outs c main_v6 (by decide))) (ix1 e)).trans
    (v6_at4 m outs c e)

theorem wcol (c : Dev nD) (r : Fin 50000) :
    (Gen.V3 m c main_v17 : Spec.Mat 50000 1) (ix2 r 0) = Spec.weight (dst m c) r := by
  show StableHlo.after Gen.hostOps0_2 (Gen.V2 m c) (Proc.devRef .tc main_v17) (ix2 r 0) = _
  have h16 := v16_at m c r
  generalize Gen.V2 m c = W at h16 ⊢
  unfold Gen.hostOps0_2
  after_results
  exact (LibColumn.shapeCast_a_a1_apply _ _ r 0).trans h16

theorem sum1 (c : Dev nD) :
    (Gen.V5 m outs c main_v28 : Spec.Mat 50000 256)
      = Spec.agg (Gen.V4 m outs c main_v18 : Spec.Mat 50000 256) (src m c) (dst m c) := by
  funext i
  obtain ⟨r, j, rfl⟩ : ∃ (r : Fin 50000) (j : Fin 256), i = ix2 r j := ⟨i 0, i 1, eq_ix2 i⟩
  dsimp only [Gen.V5, Gen.hostOps1]
  after_results
  exact agg_of (D := 256) _ rfl rfl rfl rfl _ rfl rfl rfl rfl rfl _ _ _ _ _ _ (ei m c)
    (fun e => v5_at4 m outs c e) (fun e => v6_at4 m outs c e) r j

theorem sum2 (c : Dev nD) :
    (Gen.V7 m outs c main_v39 : Spec.Mat 50000 128)
      = Spec.agg (Gen.V6 m outs c main_v29 : Spec.Mat 50000 128) (src m c) (dst m c) := by
  funext i
  obtain ⟨r, j, rfl⟩ : ∃ (r : Fin 50000) (j : Fin 128), i = ix2 r j := ⟨i 0, i 1, eq_ix2 i⟩
  dsimp only [Gen.V7, Gen.hostOps2]
  after_results
  exact agg_of (D := 128) _ rfl rfl rfl rfl _ rfl rfl rfl rfl rfl _ _ _ _ _ _ (ei m c)
    (fun e => v5_at6 m outs c e) (fun e => v6_at6 m outs c e) r j

theorem bcol (c : Dev nD) (r : Fin 50000) :
    (Gen.V7 m outs c main_v40 : (⟨2, ![50000, 1]⟩ : Shape).Idx → BitVec 32) (ix2 r 0)
      = (m (c, main_arg2) : (⟨1, ![50000]⟩ : Shape).Idx → BitVec 32) (ix1 r) := by
  dsimp only [Gen.V7, Gen.hostOps2]
  after_results
  refine (LibColumn.shapeCast_a_a1_apply _ _ r 0).trans ?_
  exact congrFun ((Gen.V6_of m outs c main_arg2 (by decide)).trans (kept5 m outs c main_arg2 (by decide))) (ix1 r)

theorem headK (c : Dev nD) :
    (Gen.V11 m outs c main_v51 : Spec.Mat 500 1)
      = Spec.headOf (fun i : (⟨2, ![500, 128]⟩ : Shape).Idx => (outs 8 main_v41_1 c : Spec.Mat 512 128) (ix2 ⟨(i 0).val, by have := idx2_lt0 i; omega⟩ (i 1)))
          (m (c, main_arg13)) (m (c, main_arg14)) (m (c, main_arg15)) (m (c, main_arg16)) := by
  have hz : ∀ i, (broadcastInDim S500x64 ![] bcast_S_S500x64 (constant (F := Ideal) S_ .f32 0x00000000#32)) i = 0 := fun i => by
    rw [Alg.bcast_scalar_apply]; exact Ideal.ofBits_zero_f32
  have hs : ∀ i, (broadcastInDim S500x64 ![] bcast_S_S500x64 (constant (F := Ideal) S_ .f32 0x3C23D70A#32)) i = Spec.slope := fun i => by
    rw [Alg.bcast_scalar_apply]; rfl
  have hP : (extractStridedSlice S500x128 ![0, 0] (Gen.V8 m outs c main_v41_1) slices_S512x128_S500x128_0_0 : Spec.Mat 500 128)
      = fun i : (⟨2, ![500, 128]⟩ : Shape).Idx => (outs 8 main_v41_1 c : Spec.Mat 512 128) (ix2 ⟨(i 0).val, by have := idx2_lt0 i; omega⟩ (i 1)) := by
    funext i
    obtain ⟨g, j, rfl⟩ : ∃ g j, i = ix2 g j := ⟨i 0, i 1, eq_ix2 i⟩
    rw [V8_v41_1 m outs c]
    exact slice2_axis0_apply 0 (outs 8 main_v41_1 c : Spec.Mat 512 128) slices_S512x128_S500x128_0_0 g j ⟨g.val, by have := g.isLt; omega⟩ (Nat.zero_add _).symm
  have key := Alg.headOf_chain dot_S500x128_S128x64_S500x64_1_0_0_1_n_n rfl rfl rfl rfl rfl rfl
    dot_S500x64_S64x1_S500x1_1_0_0_1_n_n rfl rfl rfl rfl rfl rfl
    bcast_S64_S1x64_1 bcast_S1x64_S500x64_0_1 bcast_S1_S1x1_1 bcast_S1x1_S500x1_0_1 none none
    (extractStridedSlice S500x128 ![0, 0] (Gen.V8 m outs c main_v41_1) slices_S512x128_S500x128_0_0)
    (Gen.V8 m outs c main_arg13) (Gen.V8 m outs c main_arg14) (Gen.V8 m outs c main_arg15) (Gen.V8 m outs c main_arg16)
    _ _ hz hs
  refine Eq.trans ?_ (key.trans ?_)
  · show StableHlo.after hostOps3_2 (StableHlo.after hostOps3_1 (StableHlo.after hostOps3 (Gen.V8 m outs c))) (Proc.devRef .tc main_v51) = _
    after_results_simp
    rfl
  · rw [hP, kept8 m outs c main_arg13 (by decide), kept8 m outs c main_arg14 (by decide), kept8 m outs c main_arg15 (by decide),
      kept8 m outs c main_arg16 (by decide)]

theorem haK (c : Dev nD) : Gen.V11 m outs c main_v41_0 = outs 8 main_v41_0 c :=
  (Gen.V11_of m outs c main_v41_0 (by decide)).trans <| (Gen.V10_of m outs c main_v41_0 (by decide)).trans <|
    (Gen.V9_of m outs c main_v41_0 (by decide)).trans (V8_v41_0 m outs c)

end Cert.KernelIdeal.ValHost

end
-- ==== Proof.Alg.Conv.lean ====
import proofs.«411879_j309237646134_3_alg».proof.Proof.Spec

noncomputable section

namespace Cert.Alg

open Idealize.ShloMosaic Idealize.ShloMosaic.ValueIdx Cert.Spec

-- an extended real that is a real number
abbrev Re (a : EReal) : Prop := ∃ x : ℝ, a = (x : EReal)

theorem zero_eq : Ideal.ofBits .f32 0x00000000#32 = (0 : EReal) := by simp [Ideal.ofBits, Ideal.ieee]

theorem one_eq : Ideal.ofBits .f32 0x3F800000#32 = (1 : EReal) := by
  simp [Ideal.ofBits, Ideal.ieee]
  rw [← EReal.coe_mul]
  norm_num

-- the two row widths, the variance offset and the length floor are positive reals
theorem consts_pos : (∃ c : ℝ, 0 < c ∧ Ideal.ofBits .f32 0x43800000#32 = (c : EReal))
    ∧ (∃ c : ℝ, 0 < c ∧ Ideal.ofBits .f32 0x43000000#32 = (c : EReal))
    ∧ (∃ c : ℝ, 0 < c ∧ eps = (c : EReal)) ∧ ∃ c : ℝ, 0 < c ∧ tiny = (c : EReal) := by
  refine ⟨?_, ?_, ?_, ?_⟩ <;> simp [eps, tiny, Ideal.ofBits, Ideal.ieee] <;>
    exact ⟨_, by positivity, (EReal.coe_mul _ _).symm⟩

theorem slope_real : Re slope := by
  simp [Spec.slope, Ideal.ofBits, Ideal.ieee]
  exact ⟨_, (EReal.coe_mul _ _).symm⟩

theorem sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

-- a finite nonnegative factor goes inside any finite sum of extended reals
theorem sum_mul_real {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

theorem real_add {a b : EReal} : Re a → Re b → Re (a + b) := by
  rintro ⟨x, rfl⟩ ⟨y, rfl⟩; exact ⟨x + y, rfl⟩

theorem real_sub {a b : EReal} : Re a → Re b → Re (a - b) := by
  rintro ⟨x, rfl⟩ ⟨y, rfl⟩; exact ⟨x - y, rfl⟩

theorem real_mul {a b : EReal} : Re a → Re b → Re (a * b) := by
  rintro ⟨x, rfl⟩ ⟨y, rfl⟩; exact ⟨x * y, rfl⟩

theorem real_div {a : EReal} (ha : Re a) {c : ℝ} (hc : c ≠ 0) : Re (Ideal.div a (c : EReal)) := by
  rw [Ideal.div_coe hc]; exact real_mul ha ⟨_, rfl⟩

theorem real_sum {ι : Type} (s : Finset ι) {f : ι → EReal} (h : ∀ i, Re (f i)) : Re (∑ i ∈ s, f i) := by
  choose g hg using h
  exact ⟨∑ i ∈ s, g i, (Finset.sum_congr rfl (fun i _ => hg i)).trans (sum_coe s g)⟩

theorem rsqrt_pos {y : ℝ} (hy : 0 < y) : Ideal.rsqrt (y : EReal) = (((Real.sqrt y)⁻¹ : ℝ) : EReal) := by
  rw [Ideal.rsqrt_coe, if_neg (not_lt.mpr hy.le), if_neg hy.ne']

-- a weight is zero or the reciprocal square root of something at least one: a nonnegative real
theorem weight_mem {n E : ℕ} (dst : Fin E → ℤ) (r : Fin n) :
    ∃ x : ℝ, 0 ≤ x ∧ weight dst r = (x : EReal) := by
  unfold weight
  rw [zero_eq, one_eq]
  split_ifs with h
  · have h1 : (1 : EReal) ≤ max (degree dst r) 1 := le_max_right _ _
    generalize max (degree dst r) 1 = m at h1 ⊢
    induction m using EReal.rec with
    | bot => exact absurd h1 (not_le.mpr (by exact_mod_cast EReal.bot_lt_coe (1 : ℝ)))
    | top => exact ⟨0, le_rfl, by simp⟩
    | coe x =>
      have hx : (1 : ℝ) ≤ x := by exact_mod_cast h1
      exact ⟨(Real.sqrt x)⁻¹, by positivity, rsqrt_pos (by linarith)⟩
  · exact ⟨0, le_rfl, by simp⟩

-- a finite nonnegative weight distributes over the sum, so the two arrangements agree wherever an edge that is kept fetches its own end node
theorem conv_eq {n d E : ℕ} (XW : Mat n d) (w : Fin n → EReal) (src dstN : Fin E → Fin n) (dst : Fin E → ℤ)
    (b : Vec1 d) (hw : ∀ r, ∃ x : ℝ, 0 ≤ x ∧ w r = (x : EReal))
    (hd : ∀ e (r : Fin n), dst e = (r.val : ℤ) → dstN e = r) :
    convSum XW w src dst b = convEdges XW w src dstN dst b := by
  funext i
  show (∑ e ∈ into dst (i 0), XW (ix2 (src e) (i 1)) * w (src e)) * w (i 0) + b (ix1 (i 1))
    = (∑ e ∈ into dst (i 0), XW (ix2 (src e) (i 1)) * (w (src e) * w (dstN e))) + b (ix1 (i 1))
  congr 1
  obtain ⟨c, hc0, hc⟩ := hw (i 0)
  rw [hc, sum_mul_real _ _ hc0]
  refine Finset.sum_congr rfl fun e he => ?_
  rw [hd e (i 0) (Finset.mem_filter.mp he).2, hc, mul_assoc]

theorem conv_eq_edges {d : ℕ} (ei : (⟨2, ![2, 400000]⟩ : Shape).Idx → BitVec 32) (XW : Mat 50000 d) (b : Vec1 d) :
    convSum XW (weight (n := 50000) (dstOf ei)) (srcOf ei) (dstOf ei) b
      = convEdges XW (weight (n := 50000) (dstOf ei)) (srcOf ei) (dstNodeOf ei) (dstOf ei) b :=
  conv_eq XW _ _ _ _ b (weight_mem _) fun e r h => by
    have := r.isLt
    unfold dstOf at h
    apply Fin.ext
    show min ((if (edgeWord ei 1 e).toInt < 0 then edgeWord ei 1 e + 50000#32 else edgeWord ei 1 e).toInt.toNat) 49999
      = r.val
    rw [if_neg (by omega), h]
    omega

def IsFin {ι : Type} (X : ι → EReal) : Prop := ∀ i, ∃ x : ℝ, X i = (x : EReal)

theorem weight_fin {n E : ℕ} (dst : Fin E → ℤ) : IsFin (weight (n := n) dst) := fun r => by
  obtain ⟨x, _, hx⟩ := weight_mem dst r
  exact ⟨x, hx⟩

theorem IsFin.mm {n a b : ℕ} {X : Mat n a} {W : Mat a b} (hX : IsFin X) (hW : IsFin W) : IsFin (mm X W) :=
  fun i => real_sum _ fun k => real_mul (hX (ix2 (i 0) k)) (hW (ix2 k (i 1)))

theorem IsFin.addRow {n b : ℕ} {X : Mat n b} {v : Vec1 b} (hX : IsFin X) (hv : IsFin v) : IsFin (addRow X v) :=
  fun i => real_add (hX i) (hv (ix1 (i 1)))

theorem IsFin.lrelu {n b : ℕ} {X : Mat n b} (hX : IsFin X) : IsFin (lrelu X) := fun i => by
  show Re (leaky (X i))
  unfold leaky
  split_ifs
  · exact hX i
  · exact real_mul slope_real (hX i)

theorem rowMean_real {n d : ℕ} {c : ℝ} {X : Mat n d} (hc : 0 < c) (hX : IsFin X) (r : Fin n) : Re (rowMean c X r) :=
  real_div (real_sum _ fun k => hX (ix2 r k)) hc.ne'

theorem rowVar_real {n d : ℕ} {c : ℝ} {X : Mat n d} (hc : 0 < c) (hX : IsFin X) (r : Fin n) :
    ∃ v : ℝ, 0 ≤ v ∧ rowVar c X r = (v : EReal) := by
  obtain ⟨μ, hμ⟩ := rowMean_real hc hX r
  choose x hx using hX
  unfold rowVar
  rw [hμ]
  simp only [hx, ← EReal.coe_sub, ← EReal.coe_mul]
  rw [sum_coe, Ideal.div_coe hc.ne', ← EReal.coe_mul]
  exact ⟨_, mul_nonneg (Finset.sum_nonneg fun k _ => mul_self_nonneg _) (by positivity), rfl⟩

theorem IsFin.layerNorm {n d : ℕ} {dW : EReal} {X : Mat n d} {g β : Vec1 d}
    (hdW : ∃ c : ℝ, 0 < c ∧ dW = (c : EReal)) (hX : IsFin X) (hg : IsFin g) (hβ : IsFin β) :
    IsFin (layerNorm dW X g β) := fun i => by
  obtain ⟨c, hc, rfl⟩ := hdW
  obtain ⟨v, hv0, hv⟩ := rowVar_real hc hX (i 0)
  obtain ⟨e, he0, he⟩ := consts_pos.2.2.1
  show Re ((X i - rowMean c X (i 0)) * Ideal.rsqrt (rowVar c X (i 0) + eps) * g (ix1 (i 1)) + β (ix1 (i 1)))
  rw [hv, he, ← EReal.coe_add, rsqrt_pos (by linarith)]
  exact real_add (real_mul (real_mul (real_sub (hX i) (rowMean_real hc hX (i 0))) ⟨_, rfl⟩) (hg _)) (hβ _)

theorem IsFin.l2norm {n d : ℕ} {X : Mat n d} (hX : IsFin X) : IsFin (l2norm X) := fun i => by
  obtain ⟨t, ht0, ht⟩ := consts_pos.2.2.2
  have ⟨l, hl⟩ : Re (rowLen X (i 0)) := by
    choose x hx using hX
    unfold rowLen
    simp only [hx, ← EReal.coe_mul]
    rw [sum_coe, Ideal.sqrt_coe, if_neg (not_lt.mpr (Finset.sum_nonneg fun k _ => mul_self_nonneg _))]
    exact ⟨_, rfl⟩
  show Re (Ideal.div (X i) (max (rowLen X (i 0)) tiny))
  rw [hl, ht, ← EReal.coe_strictMono.monotone.map_max]
  exact real_div (hX i) (ne_of_gt (lt_of_lt_of_le ht0 (le_max_right l t)))

theorem IsFin.convSum {n d E : ℕ} {XW : Mat n d} {w : Fin n → EReal} {bias : Vec1 d}
    (hX : IsFin XW) (hw : IsFin w) (hb : IsFin bias) (src : Fin E → Fin n) (dst : Fin E → ℤ) :
    IsFin (convSum XW w src dst bias) :=
  fun i => real_add (real_mul (real_sum _ fun e => real_mul (hX _) (hw _)) (hw _)) (hb _)

-- every layer keeps reals real, so the embeddings are real when the inputs and the weights are
theorem embed_convSum_fin {n E : ℕ} {w : Fin n → EReal} (hw : IsFin w) (src : Fin E → Fin n) (dst : Fin E → ℤ)
    {x : Mat n 92} {W0 : Mat 92 256} {b0 g1 β1 : Vec1 256} {W1 : Mat 256 256} {b1 : Vec1 256}
    {g2 β2 : Vec1 128} {W2 : Mat 256 128} {b2 : Vec1 128}
    (hx : IsFin x) (hW0 : IsFin W0) (hb0 : IsFin b0) (hg1 : IsFin g1) (hβ1 : IsFin β1) (hW1 : IsFin W1)
    (hb1 : IsFin b1) (hg2 : IsFin g2) (hβ2 : IsFin β2) (hW2 : IsFin W2) (hb2 : IsFin b2) :
    IsFin (embed (fun XW b => convSum XW w src dst b) (fun XW b => convSum XW w src dst b)
      x W0 b0 g1 β1 W1 b1 g2 β2 W2 b2) :=
  (IsFin.layerNorm consts_pos.2.1 (((IsFin.layerNorm consts_pos.1
    (((((hx.mm hW0).addRow hb0).lrelu.mm hW1).convSum hw hb1 src dst)) hg1 hβ1).lrelu.mm hW2).convSum hw hb2 src dst)
    hg2 hβ2).lrelu.l2norm

end Cert.Alg

end
-- ==== Proof.PreFin.lean ====
import proofs.«411879_j309237646134_3_alg».proof.Defs
import Idealize.ShloMosaic.Lib.ReduceAll
import Idealize.ShloMosaic.Lib.ValueIdx

noncomputable section

namespace Cert.PreFin

open Idealize.ShloMosaic Idealize.SL.Sem Cert.Pre_finite_inputs
open Cert.KernelIdeal (nD τ sig)

def AllFin {s : Shape} (x : FVec Ideal s .f32) : Prop := ∀ i : s.Idx, ∃ r : ℝ, x i = (r : EReal)

instance : Subsingleton S_.Idx := ⟨fun a b => funext fun d => d.elim0⟩

-- an absolute value below plus infinity rules out the two infinities
theorem allFin_of_reduce {s : Shape} {axes : List (Fin s.rank)} {x : FVec Ideal s .f32}
    {hb : S_.BroadcastsInDim s (![] : Fin 0 → Fin s.rank)} {hr : s.ReducesTo axes S_} {hu : 0 < S_.numel}
    (e : Host.reduce IntOp.andi
          (cmpf .olt (Host.absf x) (broadcastInDim s ![] hb (constant (F := Ideal) S_ .f32 0x7F800000#32)))
          (constantI S_ 1 1#1) hr hu ValueIdx.ix0 = 1#1) :
    AllFin x := fun i => by
  have hi : Ideal.cmp .olt (max (x i) (-(x i))) (Ideal.ofBits .f32 0x7F800000#32) = 1#1 :=
    Host.reduce_andi_all _ _ hr hu ValueIdx.ix0 e i
  induction h : x i using EReal.rec with
  | coe r => exact ⟨r, rfl⟩
  | bot => simp [h, Ideal.cmp, Ideal.ofBits, Ideal.ieee] at hi
  | top => simp [h, Ideal.cmp, Ideal.ofBits, Ideal.ieee] at hi

variable [hF : Cert.Pre_finite_inputs.Facts]

theorem pre_fin {a0 a1 a2 a3 a4 a5 a6 a7 a8 a9 a10 a11 a12 a13 a14 a15 a16}
    (h : fn (F := Ideal) a0 a1 a2 a3 a4 a5 a6 a7 a8 a9 a10 a11 a12 a13 a14 a15 a16 = fun _ => 1#1) :
    AllFin a0 ∧ AllFin a3 ∧ AllFin a4 ∧ AllFin a5 ∧ AllFin a6 ∧ AllFin a7 ∧ AllFin a8 ∧ AllFin a9 ∧ AllFin a10 ∧ AllFin a11 ∧ AllFin a12 := by
  have h0 := congrFun h ValueIdx.ix0
  dsimp only [fn, fn_part1, fn_part2, fn_part3, fn_part4] at h0
  iterate 4 obtain ⟨h0, -⟩ := IntOp.andi_eq_one.1 h0
  obtain ⟨h0, h12⟩ := IntOp.andi_eq_one.1 h0
  obtain ⟨h0, h11⟩ := IntOp.andi_eq_one.1 h0
  obtain ⟨h0, h10⟩ := IntOp.andi_eq_one.1 h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  exact ⟨allFin_of_reduce h0, allFin_of_reduce h3, allFin_of_reduce h4, allFin_of_reduce h5, allFin_of_reduce h6,
    allFin_of_reduce h7, allFin_of_reduce h8, allFin_of_reduce h9, allFin_of_reduce h10, allFin_of_reduce h11,
    allFin_of_reduce h12⟩

variable (m : (ℓ : Loc nD τ sig) → Buf (Elt Ideal) ℓ) (h : Cert.Pre_KernelIdeal m) (c : Dev nD)
include h

theorem fin_arg0 (i : S50000x92.Idx) :
    ∃ x : ℝ, (m ((c.tc : Thread nD τ).loc KernelIdeal.main_arg0) : FVec Ideal S50000x92 .f32) i = (x : EReal) :=
  (pre_fin (h c)).1 i
theorem fin_arg3 (i : S92x256.Idx) :
    ∃ x : ℝ, (m ((c.tc : Thread nD τ).loc KernelIdeal.main_arg3) : FVec Ideal S92x256 .f32) i = (x : EReal) :=
  (pre_fin (h c)).2.1 i
theorem fin_arg4 (i : S256.Idx) :
    ∃ x : ℝ, (m ((c.tc : Thread nD τ).loc KernelIdeal.main_arg4) : FVec Ideal S256 .f32) i = (x : EReal) :=
  (pre_fin (h c)).2.2.1 i
theorem fin_arg5 (i : S256.Idx) :
    ∃ x : ℝ, (m ((c.tc : Thread nD τ).loc KernelIdeal.main_arg5) : FVec Ideal S256 .f32) i = (x : EReal) :=
  (pre_fin (h c)).2.2.2.1 i
theorem fin_arg6 (i : S256.Idx) :
    ∃ x : ℝ, (m ((c.tc : Thread nD τ).loc KernelIdeal.main_arg6) : FVec Ideal S256 .f32) i = (x : EReal) :=
  (pre_fin (h c)).2.2.2.2.1 i
theorem fin_arg7 (i : S256x256.Idx) :
    ∃ x : ℝ, (m ((c.tc : Thread nD τ).loc KernelIdeal.main_arg7) : FVec Ideal S256x256 .f32) i = (x : EReal) :=
  (pre_fin (h c)).2.2.2.2.2.1 i
theorem fin_arg8 (i : S256.Idx) :
    ∃ x : ℝ, (m ((c.tc : Thread nD τ).loc KernelIdeal.main_arg8) : FVec Ideal S256 .f32) i = (x : EReal) :=
  (pre_fin (h c)).2.2.2.2.2.2.1 i
theorem fin_arg9 (i : S128.Idx) :
    ∃ x : ℝ, (m ((c.tc : Thread nD τ).loc KernelIdeal.main_arg9) : FVec Ideal S128 .f32) i = (x : EReal) :=
  (pre_fin (h c)).2.2.2.2.2.2.2.1 i
theorem fin_arg10 (i : S128.Idx) :
    ∃ x : ℝ, (m ((c.tc : Thread nD τ).loc KernelIdeal.main_arg10) : FVec Ideal S128 .f32) i = (x : EReal) :=
  (pre_fin (h c)).2.2.2.2.2.2.2.2.1 i
theorem fin_arg11 (i : S256x128.Idx) :
    ∃ x : ℝ, (m ((c.tc : Thread nD τ).loc KernelIdeal.main_arg11) : FVec Ideal S256x128 .f32) i = (x : EReal) :=
  (pre_fin (h c)).2.2.2.2.2.2.2.2.2.1 i
theorem fin_arg12 (i : S128.Idx) :
    ∃ x : ℝ, (m ((c.tc : Thread nD τ).loc KernelIdeal.main_arg12) : FVec Ideal S128 .f32) i = (x : EReal) :=
  (pre_fin (h c)).2.2.2.2.2.2.2.2.2.2 i

end Cert.PreFin

end
-- ==== Proof.KI.Value.lean ====
import proofs.«411879_j309237646134_3_alg».proof.Proof.KI.RunValues
import proofs.«411879_j309237646134_3_alg».proof.Proof.KI.Val0
import proofs.«411879_j309237646134_3_alg».proof.Proof.KI.Val1
import proofs.«411879_j309237646134_3_alg».proof.Proof.KI.Val2
import proofs.«411879_j309237646134_3_alg».proof.Proof.KI.ValHost
import proofs.«411879_j309237646134_3_alg».proof.Proof.Alg.Conv
import proofs.«411879_j309237646134_3_alg».proof.Proof.PreFin

noncomputable section

namespace Cert.KernelIdeal.Value

open Idealize.ShloMosaic Idealize.ShloMosaic.TcCoe Idealize.ShloMosaic.ValueIdx Idealize.SL.Sem
open Cert.KernelIdeal Cert.KernelIdeal.Gen Cert.Spec Cert.Alg

variable (m : (ℓ : Loc nD τ sig) → Buf (Elt Ideal) ℓ)

abbrev ei (c : Dev nD) : (⟨2, ![2, 400000]⟩ : Shape).Idx → BitVec 32 := m (c, main_arg1)

abbrev convK (c : Dev nD) {d : ℕ} (XW : Mat 50000 d) (b : Vec1 d) : Mat 50000 d :=
  convSum XW (weight (n := 50000) (dstOf (ei m c))) (srcOf (ei m c)) (dstOf (ei m c)) b

def h1K (c : Dev nD) : Mat 50000 256 :=
  lrelu (layerNorm (Ideal.ofBits .f32 0x43800000#32)
    (convK m c (mm (lrelu (addRow (mm (m (c, main_arg0)) (m (c, main_arg3))) (m (c, main_arg4)))) (m (c, main_arg7))) (m (c, main_arg8)))
    (m (c, main_arg5)) (m (c, main_arg6)))

def haK (c : Dev nD) : Mat 50000 128 :=
  embed (convK m c) (convK m c)
    (m (c, main_arg0)) (m (c, main_arg3)) (m (c, main_arg4)) (m (c, main_arg5)) (m (c, main_arg6)) (m (c, main_arg7))
    (m (c, main_arg8)) (m (c, main_arg9)) (m (c, main_arg10)) (m (c, main_arg11)) (m (c, main_arg12))

def gid (c : Dev nD) (r : Fin 50000) : ℤ :=
  ((m (c, main_arg2) : (⟨1, ![50000]⟩ : Shape).Idx → BitVec 32) (ix1 r)).toInt

def outK (c : Dev nD) : Mat 500 1 :=
  head (G := 500) (haK m c) (gid m c) (m (c, main_arg13)) (m (c, main_arg14)) (m (c, main_arg15)) (m (c, main_arg16))

theorem wcol3 (c : Dev nD) : (fun r : Fin 50000 => (V3 m c main_v17 : Mat 50000 1) (ix2 r 0)) = weight (n := 50000) (dstOf (ei m c)) :=
  funext fun r => ValHost.wcol m c r

theorem v18_eq (c : Dev nD) :
    (V4 m (Run.outs m) c main_v18 : Mat 50000 256)
      = scaleRows (mm (lrelu (addRow (mm (m (c, main_arg0)) (m (c, main_arg3))) (m (c, main_arg4)))) (m (c, main_arg7)))
          (weight (n := 50000) (dstOf (ei m c))) := by
  rw [ValHost.V4_v18, Run.outs4_eq, Val0.out0]
  dsimp only [Run.atRefs]
  rw [ValHost.kept3_arg0, ValHost.kept3_arg3, ValHost.kept3_arg4, ValHost.kept3_arg7, wcol3]

theorem v29_eq (c : Dev nD) :
    (V6 m (Run.outs m) c main_v29 : Mat 50000 128)
      = scaleRows (mm (h1K m c) (m (c, main_arg11))) (weight (n := 50000) (dstOf (ei m c))) := by
  rw [ValHost.V6_v29, Run.outs6_eq, Val1.out1]
  dsimp only [Run.atRefs]
  rw [ValHost.kept5_arg5, ValHost.kept5_arg6, ValHost.kept5_arg8, ValHost.kept5_arg11, ValHost.wcol5, wcol3,
    ValHost.sum1, v18_eq]
  rfl

theorem HA_eq (c : Dev nD) : Val2.HA (Run.atRefs (V7 m (Run.outs m))) c = haK m c := by
  unfold Val2.HA; dsimp only [Run.atRefs]
  rw [ValHost.kept7_arg9, ValHost.kept7_arg10, ValHost.kept7_arg12, ValHost.wcol7, wcol3, ValHost.sum2, v29_eq]
  rfl

theorem ha_eq (c : Dev nD) : (V11 m (Run.outs m) c main_v41_0 : Mat 50000 128) = haK m c := by
  rw [ValHost.haK, Run.outs8_0_eq, Val2.out_ha, HA_eq]

section Finite

variable [Cert.Pre_finite_inputs.Facts]

theorem haK_fin (hpre : Cert.Pre_KernelIdeal m) (c : Dev nD) : IsFin (haK m c) :=
  embed_convSum_fin (weight_fin _) _ _
    (PreFin.fin_arg0 m hpre c) (PreFin.fin_arg3 m hpre c) (PreFin.fin_arg4 m hpre c)
    (PreFin.fin_arg5 m hpre c) (PreFin.fin_arg6 m hpre c) (PreFin.fin_arg7 m hpre c)
    (PreFin.fin_arg8 m hpre c) (PreFin.fin_arg9 m hpre c) (PreFin.fin_arg10 m hpre c)
    (PreFin.fin_arg11 m hpre c) (PreFin.fin_arg12 m hpre c)

theorem out_eq (hpre : Cert.Pre_KernelIdeal m) (c : Dev nD) : (V11 m (Run.outs m) c main_v51 : Mat 500 1) = outK m c := by
  rw [ValHost.headK]
  show headOf _ _ _ _ _ = headOf (pool (G := 500) (haK m c) (gid m c)) _ _ _ _
  refine congrArg (fun P : Mat 500 128 => headOf P (m (c, main_arg13)) (m (c, main_arg14)) (m (c, main_arg15)) (m (c, main_arg16))) ?_
  funext i
  obtain ⟨g, j, rfl⟩ : ∃ (g : Fin 500) (j : Fin 128), i = ix2 g j := ⟨i 0, i 1, eq_ix2 i⟩
  show (Run.outs m 8 main_v41_1 c : Mat 512 128) (ix2 ⟨g.val, by omega⟩ j) = pool (G := 500) (haK m c) (gid m c) (ix2 g j)
  rw [Run.outs8_1_eq]
  have hfin : ∀ i, ∃ x : ℝ, Val2.HA (Run.atRefs (V7 m (Run.outs m))) c i = (x : EReal) := by
    rw [HA_eq]; exact haK_fin m hpre c
  rw [Val2.out_pool (Run.atRefs (V7 m (Run.outs m))) c hfin g j, HA_eq]
  have hg : (fun r : Fin 50000 => ((Run.atRefs (V7 m (Run.outs m)) c main_v40 : (⟨2, ![50000, 1]⟩ : Shape).Idx → BitVec 32) (ix2 r 0)).toInt) = gid m c :=
    funext fun r => congrArg BitVec.toInt (ValHost.bcol m (Run.outs m) c r)
  rw [hg]

end Finite

end Cert.KernelIdeal.Value

end
-- ==== Proof.Ref.Run.lean ====
import proofs.«411879_j309237646134_3_alg».proof.Defs
import proofs.«411879_j309237646134_3_alg».proof.Proof.Gen.ReferenceIdeal
import proofs.«411879_j309237646134_3_alg».proof.Proof.Gen.Pre_finite_inputs
import Idealize.ShloMosaic.Lib.StableHlo.Run
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

abbrev ops_part0 : List (HloOp τ sig (Elt F)) :=
  [ unary main_arg1 main_v0 (extractStridedSlice S1x400000 ![0, 0] · slices_S2x400000_S1x400000_0_0),
    reshape main_v0 main_v1 rfl shapeCasts_S1x400000_S400000,
    unary main_arg1 main_v2 (extractStridedSlice S1x400000 ![1, 0] · slices_S2x400000_S1x400000_1_0),
    reshape main_v2 main_v3 rfl shapeCasts_S1x400000_S400000,
    binary main_arg0 main_arg3 main_v4 (Host.dotGeneral dot_S50000x92_S92x256_S50000x256_1_0_0_1_n_n none),
    unary main_arg4 main_v5 (broadcastInDim S1x256 ![1] bcast_S256_S1x256_1),
    unary main_v5 main_v6 (broadcastInDim S50000x256 ![0, 1] bcast_S1x256_S50000x256_0_1),
    binary main_v4 main_v6 main_v7 addf,
    TRef.nullary main_call0.cst (constant S_ .f32 0x00000000#32),
    TRef.unary main_call0.cst main_call0.v0 (broadcastInDim S50000x256 ![] bcast_S_S50000x256),
    TRef.binary (.of main_v7) main_call0.v0 main_call0.v1 (cmpf .oge),
    TRef.nullary main_call0.cst_0 (constant S_ .f32 0x3C23D70A#32),
    TRef.unary main_call0.cst_0 main_call0.v2 (broadcastInDim S50000x256 ![] bcast_S_S50000x256),
    TRef.binary main_call0.v2 (.of main_v7) main_call0.v3 mulf,
    TRef.ternary main_call0.v1 (.of main_v7) main_call0.v3 main_call0.call0.v0 select,
    binary main_v8 main_arg7 main_v9 (Host.dotGeneral dot_S50000x256_S256x256_S50000x256_1_0_0_1_n_n none),
    nullary main_v10 (iotaInDim S50000 32 0),
    binary main_v1 main_v10 main_v11 (fun a b => concatenate S450000 0 [⟨S400000, a⟩, ⟨S50000, b⟩] concatenates_S400000_S50000_S450000_d0),
    binary main_v3 main_v10 main_v12 (fun a b => concatenate S450000 0 [⟨S400000, a⟩, ⟨S50000, b⟩] concatenates_S400000_S50000_S450000_d0),
    nullary main_cst (constant S_ .f32 0x3F800000#32),
    unary main_cst main_v13 (broadcastInDim S450000 ![] bcast_S_S450000),
    nullary main_cst_0 (constant S_ .f32 0x00000000#32),
    unary main_cst_0 main_v14 (broadcastInDim S50000 ![] bcast_S_S50000),
    unary main_v12 main_v15 (broadcastInDim S450000x1 ![0] bcast_S450000_S450000x1_0),
    ternary main_v14 main_v15 main_v13 main_v16 (Host.scatterAdd scatter_S50000_S450000x1_S450000_n_0_0_1),
    nullary main_cst_1 (constant S_ .f32 0x00000000#32),
    unary main_cst_1 main_v17 (broadcastInDim S50000 ![] bcast_S_S50000),
    binary main_v16 main_v17 main_v18 (cmpf .ogt),
    nullary main_cst_2 (constant S_ .f32 0x3F800000#32),
    unary main_cst_2 main_v19 (broadcastInDim S50000 ![] bcast_S_S50000),
    binary main_v16 main_v19 main_v20 maximumf,
    unary main_v20 main_v21 Host.rsqrt,
    nullary main_cst_3 (constant S_ .f32 0x00000000#32),
    unary main_cst_3 main_v22 (broadcastInDim S50000 ![] bcast_S_S50000),
    binary main_v16 main_v22 main_v23 (cmpf .ogt),
    unary main_v23 main_v24 (uitofp .f32),
    binary main_v21 main_v24 main_v25 mulf,
    nullary main_cst_4 (constant S_ .f32 0x00000000#32),
    TRef.unary (.of main_cst_4) main_call1.v0 id,
    TRef.unary main_call1.v0 main_call1.v1 (broadcastInDim S50000 ![] bcast_S_S50000),
    TRef.ternary (.of main_v18) (.of main_v25) main_call1.v1 main_call1.v2 select,
    nullary main_c (constantI S_ 32 0#32),
    unary main_c main_v27 (broadcastInDim S450000 ![] bcast_S_S450000),
    binary main_v11 main_v27 main_v28 (cmpi .slt),
    nullary main_c_5 (constantI S_ 32 50000#32),
    unary main_c_5 main_v29 (broadcastInDim S450000 ![] bcast_S_S450000),
    binary main_v11 main_v29 main_v30 addi,
    ternary main_v28 main_v30 main_v11 main_v31 select,
    unary main_v31 main_v32 (broadcastInDim S450000x1 ![0] bcast_S450000_S450000x1_0),
    binary main_v26 main_v32 main_v33 (Host.gather gather_S50000_S450000x1_S450000_n_0_n_n_0_1_1),
    nullary main_c_6 (constantI S_ 32 0#32),
    unary main_c_6 main_v34 (broadcastInDim S450000 ![] bcast_S_S450000),
    binary main_v12 main_v34 main_v35 (cmpi .slt),
    nullary main_c_7 (constantI S_ 32 50000#32),
    unary main_c_7 main_v36 (broadcastInDim S450000 ![] bcast_S_S450000),
    binary main_v12 main_v36 main_v37 addi,
    ternary main_v35 main_v37 main_v12 main_v38 select,
    unary main_v38 main_v39 (broadcastInDim S450000x1 ![0] bcast_S450000_S450000x1_0),
    binary main_v26 main_v39 main_v40 (Host.gather gather_S50000_S450000x1_S450000_n_0_n_n_0_1_1),
    binary main_v33 main_v40 main_v41 mulf,
    nullary main_c_8 (constantI S_ 32 0#32),
    unary main_c_8 main_v42 (broadcastInDim S450000 ![] bcast_S_S450000),
    binary main_v11 main_v42 main_v43 (cmpi .slt),
    nullary main_c_9 (constantI S_ 32 50000#32),
    unary main_c_9 main_v44 (broadcastInDim S450000 ![] bcast_S_S450000),
    binary main_v11 main_v44 main_v45 addi,
    ternary main_v43 main_v45 main_v11 main_v46 select,
    unary main_v46 main_v47 (broadcastInDim S450000x1 ![0] bcast_S450000_S450000x1_0) ]

abbrev ops_part1 : List (HloOp τ sig (Elt F)) :=
  [ binary main_v9 main_v47 main_v48 (Host.gather gather_S50000x256_S450000x1_S450000x256_1_0_n_n_0_1_1256),
    unary main_v41 main_v49 (broadcastInDim S450000x1 ![0] bcast_S450000_S450000x1_0),
    unary main_v49 main_v50 (broadcastInDim S450000x256 ![0, 1] bcast_S450000x1_S450000x256_0_1),
    binary main_v48 main_v50 main_v51 mulf,
    nullary main_cst_10 (constant S_ .f32 0x00000000#32),
    unary main_cst_10 main_v52 (broadcastInDim S50000x256 ![] bcast_S_S50000x256),
    unary main_v12 main_v53 (broadcastInDim S450000x1 ![0] bcast_S450000_S450000x1_0),
    ternary main_v52 main_v53 main_v51 main_v54 (Host.scatterAdd scatter_S50000x256_S450000x1_S450000x256_1_0_0_1),
    unary main_arg8 main_v55 (broadcastInDim S1x256 ![1] bcast_S256_S1x256_1),
    unary main_v55 main_v56 (broadcastInDim S50000x256 ![0, 1] bcast_S1x256_S50000x256_0_1),
    binary main_v54 main_v56 main_v57 addf,
    nullary main_cst_11 (constant S_ .f32 0x00000000#32),
    binary main_v57 main_cst_11 main_v58 (fun x v => Host.reduceAdd x v reducesTo_S50000x256_S50000_d1 h_S_),
    unary main_v58 main_v59 (broadcastInDim S50000x1 ![0] bcast_S50000_S50000x1_0),
    nullary main_cst_12 (constant S_ .f32 0x43800000#32),
    unary main_cst_12 main_v60 (broadcastInDim S50000x1 ![] bcast_S_S50000x1),
    binary main_v59 main_v60 main_v61 Host.divf,
    unary main_v61 main_v62 (broadcastInDim S50000x256 ![0, 1] bcast_S50000x1_S50000x256_0_1),
    binary main_v57 main_v62 main_v63 subf,
    binary main_v63 main_v63 main_v64 mulf,
    nullary main_cst_13 (constant S_ .f32 0x00000000#32),
    binary main_v64 main_cst_13 main_v65 (fun x v => Host.reduceAdd x v reducesTo_S50000x256_S50000_d1 h_S_),
    unary main_v65 main_v66 (broadcastInDim S50000x1 ![0] bcast_S50000_S50000x1_0),
    nullary main_cst_14 (constant S_ .f32 0x43800000#32),
    unary main_cst_14 main_v67 (broadcastInDim S50000x1 ![] bcast_S_S50000x1),
    binary main_v66 main_v67 main_v68 Host.divf,
    unary main_v61 main_v69 (broadcastInDim S50000x256 ![0, 1] bcast_S50000x1_S50000x256_0_1),
    binary main_v57 main_v69 main_v70 subf,
    nullary main_cst_15 (constant S_ .f32 0x3727C5AC#32),
    unary main_cst_15 main_v71 (broadcastInDim S50000x1 ![] bcast_S_S50000x1),
    binary main_v68 main_v71 main_v72 addf,
    unary main_v72 main_v73 Host.rsqrt,
    unary main_v73 main_v74 (broadcastInDim S50000x256 ![0, 1] bcast_S50000x1_S50000x256_0_1),
    binary main_v70 main_v74 main_v75 mulf,
    unary main_arg5 main_v76 (broadcastInDim S1x256 ![1] bcast_S256_S1x256_1),
    unary main_v76 main_v77 (broadcastInDim S50000x256 ![0, 1] bcast_S1x256_S50000x256_0_1),
    binary main_v75 main_v77 main_v78 mulf,
    unary main_arg6 main_v79 (broadcastInDim S1x256 ![1] bcast_S256_S1x256_1),
    unary main_v79 main_v80 (broadcastInDim S50000x256 ![0, 1] bcast_S1x256_S50000x256_0_1),
    binary main_v78 main_v80 main_v81 addf,
    TRef.nullary main_call2.cst (constant S_ .f32 0x00000000#32),
    TRef.unary main_call2.cst main_call2.v0 (broadcastInDim S50000x256 ![] bcast_S_S50000x256),
    TRef.binary (.of main_v81) main_call2.v0 main_call2.v1 (cmpf .oge),
    TRef.nullary main_call2.cst_0 (constant S_ .f32 0x3C23D70A#32),
    TRef.unary main_call2.cst_0 main_call2.v2 (broadcastInDim S50000x256 ![] bcast_S_S50000x256),
    TRef.binary main_call2.v2 (.of main_v81) main_call2.v3 mulf,
    TRef.ternary main_call2.v1 (.of main_v81) main_call2.v3 main_call2.call0.v0 select,
    binary main_v82 main_arg11 main_v83 (Host.dotGeneral dot_S50000x256_S256x128_S50000x128_1_0_0_1_n_n none),
    nullary main_v84 (iotaInDim S50000 32 0),
    binary main_v1 main_v84 main_v85 (fun a b => concatenate S450000 0 [⟨S400000, a⟩, ⟨S50000, b⟩] concatenates_S400000_S50000_S450000_d0),
    binary main_v3 main_v84 main_v86 (fun a b => concatenate S450000 0 [⟨S400000, a⟩, ⟨S50000, b⟩] concatenates_S400000_S50000_S450000_d0),
    nullary main_cst_16 (constant S_ .f32 0x3F800000#32),
    unary main_cst_16 main_v87 (broadcastInDim S450000 ![] bcast_S_S450000),
    nullary main_cst_17 (constant S_ .f32 0x00000000#32),
    unary main_cst_17 main_v88 (broadcastInDim S50000 ![] bcast_S_S50000),
    unary main_v86 main_v89 (broadcastInDim S450000x1 ![0] bcast_S450000_S450000x1_0),
    ternary main_v88 main_v89 main_v87 main_v90 (Host.scatterAdd scatter_S50000_S450000x1_S450000_n_0_0_1),
    nullary main_cst_18 (constant S_ .f32 0x00000000#32),
    unary main_cst_18 main_v91 (broadcastInDim S50000 ![] bcast_S_S50000),
    binary main_v90 main_v91 main_v92 (cmpf .ogt),
    nullary main_cst_19 (constant S_ .f32 0x3F800000#32),
    unary main_cst_19 main_v93 (broadcastInDim S50000 ![] bcast_S_S50000),
    binary main_v90 main_v93 main_v94 maximumf,
    unary main_v94 main_v95 Host.rsqrt,
    nullary main_cst_20 (constant S_ .f32 0x00000000#32),
    unary main_cst_20 main_v96 (broadcastInDim S50000 ![] bcast_S_S50000) ]

abbrev ops_part2 : List (HloOp τ sig (Elt F)) :=
  [ binary main_v90 main_v96 main_v97 (cmpf .ogt),
    unary main_v97 main_v98 (uitofp .f32),
    binary main_v95 main_v98 main_v99 mulf,
    nullary main_cst_21 (constant S_ .f32 0x00000000#32),
    TRef.unary (.of main_cst_21) main_call3.v0 id,
    TRef.unary main_call3.v0 main_call3.v1 (broadcastInDim S50000 ![] bcast_S_S50000),
    TRef.ternary (.of main_v92) (.of main_v99) main_call3.v1 main_call3.v2 select,
    nullary main_c_22 (constantI S_ 32 0#32),
    unary main_c_22 main_v101 (broadcastInDim S450000 ![] bcast_S_S450000),
    binary main_v85 main_v101 main_v102 (cmpi .slt),
    nullary main_c_23 (constantI S_ 32 50000#32),
    unary main_c_23 main_v103 (broadcastInDim S450000 ![] bcast_S_S450000),
    binary main_v85 main_v103 main_v104 addi,
    ternary main_v102 main_v104 main_v85 main_v105 select,
    unary main_v105 main_v106 (broadcastInDim S450000x1 ![0] bcast_S450000_S450000x1_0),
    binary main_v100 main_v106 main_v107 (Host.gather gather_S50000_S450000x1_S450000_n_0_n_n_0_1_1),
    nullary main_c_24 (constantI S_ 32 0#32),
    unary main_c_24 main_v108 (broadcastInDim S450000 ![] bcast_S_S450000),
    binary main_v86 main_v108 main_v109 (cmpi .slt),
    nullary main_c_25 (constantI S_ 32 50000#32),
    unary main_c_25 main_v110 (broadcastInDim S450000 ![] bcast_S_S450000),
    binary main_v86 main_v110 main_v111 addi,
    ternary main_v109 main_v111 main_v86 main_v112 select,
    unary main_v112 main_v113 (broadcastInDim S450000x1 ![0] bcast_S450000_S450000x1_0),
    binary main_v100 main_v113 main_v114 (Host.gather gather_S50000_S450000x1_S450000_n_0_n_n_0_1_1),
    binary main_v107 main_v114 main_v115 mulf,
    nullary main_c_26 (constantI S_ 32 0#32),
    unary main_c_26 main_v116 (broadcastInDim S450000 ![] bcast_S_S450000),
    binary main_v85 main_v116 main_v117 (cmpi .slt),
    nullary main_c_27 (constantI S_ 32 50000#32),
    unary main_c_27 main_v118 (broadcastInDim S450000 ![] bcast_S_S450000),
    binary main_v85 main_v118 main_v119 addi,
    ternary main_v117 main_v119 main_v85 main_v120 select,
    unary main_v120 main_v121 (broadcastInDim S450000x1 ![0] bcast_S450000_S450000x1_0),
    binary main_v83 main_v121 main_v122 (Host.gather gather_S50000x128_S450000x1_S450000x128_1_0_n_n_0_1_1128),
    unary main_v115 main_v123 (broadcastInDim S450000x1 ![0] bcast_S450000_S450000x1_0),
    unary main_v123 main_v124 (broadcastInDim S450000x128 ![0, 1] bcast_S450000x1_S450000x128_0_1),
    binary main_v122 main_v124 main_v125 mulf,
    nullary main_cst_28 (constant S_ .f32 0x00000000#32),
    unary main_cst_28 main_v126 (broadcastInDim S50000x128 ![] bcast_S_S50000x128),
    unary main_v86 main_v127 (broadcastInDim S450000x1 ![0] bcast_S450000_S450000x1_0),
    ternary main_v126 main_v127 main_v125 main_v128 (Host.scatterAdd scatter_S50000x128_S450000x1_S450000x128_1_0_0_1),
    unary main_arg12 main_v129 (broadcastInDim S1x128 ![1] bcast_S128_S1x128_1),
    unary main_v129 main_v130 (broadcastInDim S50000x128 ![0, 1] bcast_S1x128_S50000x128_0_1),
    binary main_v128 main_v130 main_v131 addf,
    nullary main_cst_29 (constant S_ .f32 0x00000000#32),
    binary main_v131 main_cst_29 main_v132 (fun x v => Host.reduceAdd x v reducesTo_S50000x128_S50000_d1 h_S_),
    unary main_v132 main_v133 (broadcastInDim S50000x1 ![0] bcast_S50000_S50000x1_0),
    nullary main_cst_30 (constant S_ .f32 0x43000000#32),
    unary main_cst_30 main_v134 (broadcastInDim S50000x1 ![] bcast_S_S50000x1),
    binary main_v133 main_v134 main_v135 Host.divf,
    unary main_v135 main_v136 (broadcastInDim S50000x128 ![0, 1] bcast_S50000x1_S50000x128_0_1),
    binary main_v131 main_v136 main_v137 subf,
    binary main_v137 main_v137 main_v138 mulf,
    nullary main_cst_31 (constant S_ .f32 0x00000000#32),
    binary main_v138 main_cst_31 main_v139 (fun x v => Host.reduceAdd x v reducesTo_S50000x128_S50000_d1 h_S_),
    unary main_v139 main_v140 (broadcastInDim S50000x1 ![0] bcast_S50000_S50000x1_0),
    nullary main_cst_32 (constant S_ .f32 0x43000000#32),
    unary main_cst_32 main_v141 (broadcastInDim S50000x1 ![] bcast_S_S50000x1),
    binary main_v140 main_v141 main_v142 Host.divf,
    unary main_v135 main_v143 (broadcastInDim S50000x128 ![0, 1] bcast_S50000x1_S50000x128_0_1),
    binary main_v131 main_v143 main_v144 subf ]

abbrev ops_part3 : List (HloOp τ sig (Elt F)) :=
  [ nullary main_cst_33 (constant S_ .f32 0x3727C5AC#32),
    unary main_cst_33 main_v145 (broadcastInDim S50000x1 ![] bcast_S_S50000x1),
    binary main_v142 main_v145 main_v146 addf,
    unary main_v146 main_v147 Host.rsqrt,
    unary main_v147 main_v148 (broadcastInDim S50000x128 ![0, 1] bcast_S50000x1_S50000x128_0_1),
    binary main_v144 main_v148 main_v149 mulf,
    unary main_arg9 main_v150 (broadcastInDim S1x128 ![1] bcast_S128_S1x128_1),
    unary main_v150 main_v151 (broadcastInDim S50000x128 ![0, 1] bcast_S1x128_S50000x128_0_1),
    binary main_v149 main_v151 main_v152 mulf,
    unary main_arg10 main_v153 (broadcastInDim S1x128 ![1] bcast_S128_S1x128_1),
    unary main_v153 main_v154 (broadcastInDim S50000x128 ![0, 1] bcast_S1x128_S50000x128_0_1),
    binary main_v152 main_v154 main_v155 addf,
    TRef.nullary main_call4.cst (constant S_ .f32 0x00000000#32),
    TRef.unary main_call4.cst main_call4.v0 (broadcastInDim S50000x128 ![] bcast_S_S50000x128),
    TRef.binary (.of main_v155) main_call4.v0 main_call4.v1 (cmpf .oge),
    TRef.nullary main_call4.cst_0 (constant S_ .f32 0x3C23D70A#32),
    TRef.unary main_call4.cst_0 main_call4.v2 (broadcastInDim S50000x128 ![] bcast_S_S50000x128),
    TRef.binary main_call4.v2 (.of main_v155) main_call4.v3 mulf,
    TRef.ternary main_call4.v1 (.of main_v155) main_call4.v3 main_call4.call0.v0 select,
    TRef.binary (.of main_v156) (.of main_v156) main_call5.v0 mulf,
    TRef.nullary main_call5.cst (constant S_ .f32 0x00000000#32),
    TRef.binary main_call5.v0 main_call5.cst main_call5.v1 (fun x v => Host.reduceAdd x v reducesTo_S50000x128_S50000_d1 h_S_),
    TRef.unary main_call5.v1 main_call5.v2 (broadcastInDim S50000x1 ![0] bcast_S50000_S50000x1_0),
    TRef.unary main_call5.v2 main_call5.v3 Host.sqrt,
    nullary main_cst_34 (constant S_ .f32 0x2B8CBCCC#32),
    unary main_cst_34 main_v158 (broadcastInDim S50000x1 ![] bcast_S_S50000x1),
    binary main_v157 main_v158 main_v159 maximumf,
    unary main_v159 main_v160 (broadcastInDim S50000x128 ![0, 1] bcast_S50000x1_S50000x128_0_1),
    binary main_v156 main_v160 main_v161 Host.divf,
    nullary main_cst_35 (constant S_ .f32 0x00000000#32),
    unary main_cst_35 main_v162 (broadcastInDim S500x128 ![] bcast_S_S500x128),
    unary main_arg2 main_v163 (broadcastInDim S50000x1 ![0] bcast_S50000_S50000x1_0),
    ternary main_v162 main_v163 main_v161 main_v164 (Host.scatterAdd scatter_S500x128_S50000x1_S50000x128_1_0_0_1),
    binary main_v164 main_arg13 main_v165 (Host.dotGeneral dot_S500x128_S128x64_S500x64_1_0_0_1_n_n none),
    unary main_arg14 main_v166 (broadcastInDim S1x64 ![1] bcast_S64_S1x64_1),
    unary main_v166 main_v167 (broadcastInDim S500x64 ![0, 1] bcast_S1x64_S500x64_0_1),
    binary main_v165 main_v167 main_v168 addf,
    TRef.nullary main_call6.cst (constant S_ .f32 0x00000000#32),
    TRef.unary main_call6.cst main_call6.v0 (broadcastInDim S500x64 ![] bcast_S_S500x64),
    TRef.binary (.of main_v168) main_call6.v0 main_call6.v1 (cmpf .oge),
    TRef.nullary main_call6.cst_0 (constant S_ .f32 0x3C23D70A#32),
    TRef.unary main_call6.cst_0 main_call6.v2 (broadcastInDim S500x64 ![] bcast_S_S500x64),
    TRef.binary main_call6.v2 (.of main_v168) main_call6.v3 mulf,
    TRef.ternary main_call6.v1 (.of main_v168) main_call6.v3 main_call6.call0.v0 select,
    binary main_v169 main_arg15 main_v170 (Host.dotGeneral dot_S500x64_S64x1_S500x1_1_0_0_1_n_n none),
    unary main_arg16 main_v171 (broadcastInDim S1x1 ![1] bcast_S1_S1x1_1),
    unary main_v171 main_v172 (broadcastInDim S500x1 ![0, 1] bcast_S1x1_S500x1_0_1),
    binary main_v170 main_v172 main_v173 addf ]

abbrev ops : List (HloOp τ sig (Elt F)) :=
  ops_part0 ++ (ops_part1 ++ (ops_part2 ++ ops_part3))

set_option maxRecDepth 8192 in
set_option maxHeartbeats 4000000 in
theorem main_part0_eq (c : Dev nD) : main_part0 (F := F) c = seq ops_part0 := rfl

set_option maxRecDepth 8192 in
set_option maxHeartbeats 4000000 in
theorem main_part1_eq (c : Dev nD) : main_part1 (F := F) c = seq ops_part1 := rfl

set_option maxRecDepth 8192 in
set_option maxHeartbeats 4000000 in
theorem main_part2_eq (c : Dev nD) : main_part2 (F := F) c = seq ops_part2 := rfl

set_option maxRecDepth 8192 in
set_option maxHeartbeats 4000000 in
theorem main_part3_eq (c : Dev nD) : main_part3 (F := F) c = seq ops_part3 := rfl

set_option maxRecDepth 8192 in
set_option maxHeartbeats 4000000 in
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append, List.Forall, nullary_bufs_sub, unary_bufs_sub, binary_bufs_sub, ternary_bufs_sub, reshape_bufs_sub, and_self]

theorem ops_fresh : ∀ op ∈ (ops : List (HloOp τ sig (Elt F))), op.fresh = ∅ := by
  refine List.forall_iff_forall_mem.mp ?_
  simp only [ops, List.forall_append]
  refine ⟨?_, ?_, ?_, ?_⟩ <;> (repeat' apply And.intro) <;> rfl

abbrev ops_part0_W : List (Ref sig .tc) :=
  [main_v0, main_v1, main_v2, main_v3, main_v4, main_v5, main_v6, main_v7, main_call0.cst.ref, main_call0.v0.ref, main_call0.v1.ref, main_call0.cst_0.ref, main_call0.v2.ref, main_call0.v3.ref, main_call0.call0.v0.ref, main_v9, main_v10, main_v11, main_v12, main_cst, main_v13, main_cst_0, main_v14, main_v15, main_v16, main_cst_1, main_v17, main_v18, main_cst_2, main_v19, main_v20, main_v21, main_cst_3, main_v22, main_v23, main_v24, main_v25, main_cst_4, main_call1.v0.ref, main_call1.v1.ref, main_call1.v2.ref, main_c, main_v27, main_v28, main_c_5, main_v29, main_v30, main_v31, main_v32, main_v33, main_c_6, main_v34, main_v35, main_c_7, main_v36, main_v37, main_v38, main_v39, main_v40, main_v41, main_c_8, main_v42, main_v43, main_c_9, main_v44, main_v45, main_v46, main_v47]

abbrev ops_part1_W : List (Ref sig .tc) :=
  [main_v48, main_v49, main_v50, main_v51, main_cst_10, main_v52, main_v53, main_v54, main_v55, main_v56, main_v57, main_cst_11, main_v58, main_v59, main_cst_12, main_v60, main_v61, main_v62, main_v63, main_v64, main_cst_13, main_v65, main_v66, main_cst_14, main_v67, main_v68, main_v69, main_v70, main_cst_15, main_v71, main_v72, main_v73, main_v74, main_v75, main_v76, main_v77, main_v78, main_v79, main_v80, main_v81, main_call2.cst.ref, main_call2.v0.ref, main_call2.v1.ref, main_call2.cst_0.ref, main_call2.v2.ref, main_call2.v3.ref, main_call2.call0.v0.ref, main_v83, main_v84, main_v85, main_v86, main_cst_16, main_v87, main_cst_17, main_v88, main_v89, main_v90, main_cst_18, main_v91, main_v92, main_cst_19, main_v93, main_v94, main_v95, main_cst_20, main_v96]

abbrev ops_part2_W : List (Ref sig .tc) :=
  [main_v97, main_v98, main_v99, main_cst_21, main_call3.v0.ref, main_call3.v1.ref, main_call3.v2.ref, main_c_22, main_v101, main_v102, main_c_23, main_v103, main_v104, main_v105, main_v106, main_v107, main_c_24, main_v108, main_v109, main_c_25, main_v110, main_v111, main_v112, main_v113, main_v114, main_v115, main_c_26, main_v116, main_v117, main_c_27, main_v118, main_v119, main_v120, main_v121, main_v122, main_v123, main_v124, main_v125, main_cst_28, main_v126, main_v127, main_v128, main_v129, main_v130, main_v131, main_cst_29, main_v132, main_v133, main_cst_30, main_v134, main_v135, main_v136, main_v137, main_v138, main_cst_31, main_v139, main_v140, main_cst_32, main_v141, main_v142, main_v143, main_v144]

abbrev ops_part3_W : List (Ref sig .tc) :=
  [main_cst_33, main_v145, main_v146, main_v147, main_v148, main_v149, main_v150, main_v151, main_v152, main_v153, main_v154, main_v155, main_call4.cst.ref, main_call4.v0.ref, main_call4.v1.ref, main_call4.cst_0.ref, main_call4.v2.ref, main_call4.v3.ref, main_call4.call0.v0.ref, main_call5.v0.ref, main_call5.cst.ref, main_call5.v1.ref, main_call5.v2.ref, main_call5.v3.ref, main_cst_34, main_v158, main_v159, main_v160, main_v161, main_cst_35, main_v162, main_v163, main_v164, main_v165, main_v166, main_v167, main_v168, main_call6.cst.ref, main_call6.v0.ref, main_call6.v1.ref, main_call6.cst_0.ref, main_call6.v2.ref, main_call6.v3.ref, main_call6.call0.v0.ref, main_v170, main_v171, main_v172, main_v173]

/-- Each operation writes one buffer, and that buffer is in its window's list. -/
theorem ops_writes :
    ((ops_part0 : List (HloOp τ sig (Elt F))).Forall fun op => op.writes ⊆ (ops_part0_W.map (Proc.devRef (τ := τ) .tc)).toFinset)
    ∧ ((ops_part1 : List (HloOp τ sig (Elt F))).Forall fun op => op.writes ⊆ (ops_part1_W.map (Proc.devRef (τ := τ) .tc)).toFinset)
    ∧ ((ops_part2 : List (HloOp τ sig (Elt F))).Forall fun op => op.writes ⊆ (ops_part2_W.map (Proc.devRef (τ := τ) .tc)).toFinset)
    ∧ ((ops_part3 : List (HloOp τ sig (Elt F))).Forall fun op => op.writes ⊆ (ops_part3_W.map (Proc.devRef (τ := τ) .tc)).toFinset) := by
  refine ⟨?_, ?_, ?_, ?_⟩ <;> (repeat' apply And.intro) <;>
    exact (Finset.singleton_subset_iff.2 (List.mem_toFinset.2 (List.mem_map_of_mem (by decide))))

theorem after_ops (V : Valuation τ sig (Elt F)) :
    after (ops : List (HloOp τ sig (Elt F))) V = after ops_part3 (after ops_part2 (after ops_part1 (after ops_part0 V))) := by
  simp only [ops, after_append]

theorem ops_part0_keep (V : Valuation τ sig (Elt F)) (r : Ref sig .tc) (h : r ∉ ops_part0_W) :
    after (ops_part0 : List (HloOp τ sig (Elt F))) V (Proc.devRef .tc r) = V (Proc.devRef .tc r) :=
  after_of_writes_sub ops_part0 V ops_writes.1 h

theorem ops_part1_keep (V : Valuation τ sig (Elt F)) (r : Ref sig .tc) (h : r ∉ ops_part1_W) :
    after (ops_part1 : List (HloOp τ sig (Elt F))) V (Proc.devRef .tc r) = V (Proc.devRef .tc r) :=
  after_of_writes_sub ops_part1 V ops_writes.2.1 h

theorem ops_part2_keep (V : Valuation τ sig (Elt F)) (r : Ref sig .tc) (h : r ∉ ops_part2_W) :
    after (ops_part2 : List (HloOp τ sig (Elt F))) V (Proc.devRef .tc r) = V (Proc.devRef .tc r) :=
  after_of_writes_sub ops_part2 V ops_writes.2.2.1 h

theorem ops_part3_keep (V : Valuation τ sig (Elt F)) (r : Ref sig .tc) (h : r ∉ ops_part3_W) :
    after (ops_part3 : List (HloOp τ sig (Elt F))) V (Proc.devRef .tc r) = V (Proc.devRef .tc r) :=
  after_of_writes_sub ops_part3 V ops_writes.2.2.2 h

/-- A buffer written in no window keeps its launch contents through all the operations. -/
theorem after_ops_keep (V : Valuation τ sig (Elt F)) (r : Ref sig .tc)
    (h0 : r ∉ ops_part0_W := by decide) (h1 : r ∉ ops_part1_W := by decide) (h2 : r ∉ ops_part2_W := by decide) (h3 : r ∉ ops_part3_W := by decide) :
    after (ops : List (HloOp τ sig (Elt F))) V (Proc.devRef .tc r) = V (Proc.devRef .tc r) := by
  rw [after_ops, ops_part3_keep _ r h3, ops_part2_keep _ r h2, ops_part1_keep _ r h1, ops_part0_keep _ r h0]

theorem keep_arg2 (V : Valuation τ sig (Elt F)) : after (ops : List (HloOp τ sig (Elt F))) V (Proc.devRef .tc main_arg2) = V (Proc.devRef .tc main_arg2) :=
  after_ops_keep V main_arg2
theorem keep_arg13 (V : Valuation τ sig (Elt F)) : after (ops : List (HloOp τ sig (Elt F))) V (Proc.devRef .tc main_arg13) = V (Proc.devRef .tc main_arg13) :=
  after_ops_keep V main_arg13
theorem keep_arg14 (V : Valuation τ sig (Elt F)) : after (ops : List (HloOp τ sig (Elt F))) V (Proc.devRef .tc main_arg14) = V (Proc.devRef .tc main_arg14) :=
  after_ops_keep V main_arg14
theorem keep_arg15 (V : Valuation τ sig (Elt F)) : after (ops : List (HloOp τ sig (Elt F))) V (Proc.devRef .tc main_arg15) = V (Proc.devRef .tc main_arg15) :=
  after_ops_keep V main_arg15
theorem keep_arg16 (V : Valuation τ sig (Elt F)) : after (ops : List (HloOp τ sig (Elt F))) V (Proc.devRef .tc main_arg16) = V (Proc.devRef .tc main_arg16) :=
  after_ops_keep V main_arg16

theorem run (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The two results at the operations' fold, the seventeen arguments unchanged. -/
theorem results (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v173) = after ops (launchContents m c) (Proc.devRef .tc main_v173)
      ∧ r.2.mem ((c.tc : Thread nD τ).loc main_v161) = after ops (launchContents m c) (Proc.devRef .tc main_v161)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run _ _ _).mono (fun _ h c => ⟨h c main_v173, h c main_v161,
    (h c main_arg0).trans (after_ops_keep _ main_arg0),
    (h c main_arg1).trans (after_ops_keep _ main_arg1),
    (h c main_arg2).trans (after_ops_keep _ main_arg2),
    (h c main_arg3).trans (after_ops_keep _ main_arg3),
    (h c main_arg4).trans (after_ops_keep _ main_arg4),
    (h c main_arg5).trans (after_ops_keep _ main_arg5),
    (h c main_arg6).trans (after_ops_keep _ main_arg6),
    (h c main_arg7).trans (after_ops_keep _ main_arg7),
    (h c main_arg8).trans (after_ops_keep _ main_arg8),
    (h c main_arg9).trans (after_ops_keep _ main_arg9),
    (h c main_arg10).trans (after_ops_keep _ main_arg10),
    (h c main_arg11).trans (after_ops_keep _ main_arg11),
    (h c main_arg12).trans (after_ops_keep _ main_arg12),
    (h c main_arg13).trans (after_ops_keep _ main_arg13),
    (h c main_arg14).trans (after_ops_keep _ main_arg14),
    (h c main_arg15).trans (after_ops_keep _ main_arg15),
    (h c main_arg16).trans (after_ops_keep _ main_arg16)⟩)
    (run m ρ)

theorem frame : Cert.frame_ReferenceIdeal := fun m g _ =>
  (θ_run _ _ _).mono (fun _ h c => (h c).2.2) (results (F := Ideal) m g)

end Cert.ReferenceIdeal.HandRun

end
-- ==== Proof.Ref.ValLN.lean ====
import proofs.«411879_j309237646134_3_alg».proof.Proof.Gen.ReferenceIdeal
import proofs.«411879_j309237646134_3_alg».proof.Proof.Spec
import proofs.«411879_j309237646134_3_alg».proof.Proof.Alg.HostRead
import proofs.«411879_j309237646134_3_alg».proof.Proof.Alg.Head
import Idealize.ShloMosaic.Lib.ValueLayout
import Idealize.ShloMosaic.Lib.IdealHost

noncomputable section

open scoped BigOperators

namespace Cert.ReferenceIdeal.Val

open Idealize.ShloMosaic Idealize.ShloMosaic.ValueIdx Cert Cert.ReferenceIdeal Cert.ReferenceIdeal.Gen

/-- What differs between the two layers: the width `d` and its float word. -/
structure Width (d : ℕ) where
  w : BitVec 32
  gd : GatherDims ⟨2, ![50000, d]⟩ S450000x1 ⟨2, ![450000, d]⟩
  sd : ScatterDims ⟨2, ![50000, d]⟩ S450000x1 ⟨2, ![450000, d]⟩
  hz : S_.BroadcastsInDim ⟨2, ![50000, d]⟩ ![]
  hr : (⟨2, ![50000, d]⟩ : Shape).ReducesTo [1] S50000
  hm : S50000x1.BroadcastsInDim ⟨2, ![50000, d]⟩ ![0, 1]
  h1 : (⟨1, ![d]⟩ : Shape).BroadcastsInDim ⟨2, ![1, d]⟩ ![1]
  h2 : (⟨2, ![1, d]⟩ : Shape).BroadcastsInDim ⟨2, ![50000, d]⟩ ![0, 1]
  hb : S450000x1.BroadcastsInDim ⟨2, ![450000, d]⟩ ![0, 1]
  god : gd.offsetDims = [1] := by rfl
  gcs : gd.collapsedSliceDims = [0] := by rfl
  gob : gd.operandBatchingDims = [] := by rfl
  gsm : gd.startIndexMap = [0] := by rfl
  giv : gd.indexVectorDim = 1 := by rfl
  suw : sd.updateWindowDims = [1] := by rfl
  siw : sd.insertedWindowDims = [0] := by rfl
  ssd : sd.scatterDimsToOperandDims = [0] := by rfl
  siv : sd.indexVectorDim = 1 := by rfl

def W256 : Width 256 where
  w := 0x43800000#32
  gd := gather_S50000x256_S450000x1_S450000x256_1_0_n_n_0_1_1256
  sd := scatter_S50000x256_S450000x1_S450000x256_1_0_0_1
  hz := bcast_S_S50000x256
  hr := reducesTo_S50000x256_S50000_d1
  hm := bcast_S50000x1_S50000x256_0_1
  h1 := bcast_S256_S1x256_1
  h2 := bcast_S1x256_S50000x256_0_1
  hb := bcast_S450000x1_S450000x256_0_1

def W128 : Width 128 where
  w := 0x43000000#32
  gd := gather_S50000x128_S450000x1_S450000x128_1_0_n_n_0_1_1128
  sd := scatter_S50000x128_S450000x1_S450000x128_1_0_0_1
  hz := bcast_S_S50000x128
  hr := reducesTo_S50000x128_S50000_d1
  hm := bcast_S50000x1_S50000x128_0_1
  h1 := bcast_S128_S1x128_1
  h2 := bcast_S1x128_S50000x128_0_1
  hb := bcast_S450000x1_S450000x128_0_1

section Stages

variable {F : FTy → Type} [FloatOps F] {n d : ℕ} (k : Width d)

/-- One float word at every index. -/
def splat {t : Shape} (h : S_.BroadcastsInDim t ![]) (b : BitVec 32) : FVec F t .f32 :=
  broadcastInDim t ![] h (constant S_ .f32 b)

def rows (h1 : (⟨1, ![d]⟩ : Shape).BroadcastsInDim ⟨2, ![1, d]⟩ ![1]) (h2 : (⟨2, ![1, d]⟩ : Shape).BroadcastsInDim ⟨2, ![n, d]⟩ ![0, 1])
    (v : FVec F ⟨1, ![d]⟩ .f32) : FVec F ⟨2, ![n, d]⟩ .f32 :=
  broadcastInDim _ ![0, 1] h2 (broadcastInDim _ ![1] h1 v)

def leakyG (hz : S_.BroadcastsInDim ⟨2, ![n, d]⟩ ![]) (X : FVec F ⟨2, ![n, d]⟩ .f32) : FVec F ⟨2, ![n, d]⟩ .f32 :=
  select (cmpf .oge X (splat hz 0x00000000#32)) X (mulf (splat hz 0x3C23D70A#32) X)

def meanG (X : FVec F ⟨2, ![50000, d]⟩ .f32) : FVec F S50000x1 .f32 :=
  Host.divf (broadcastInDim S50000x1 ![0] bcast_S50000_S50000x1_0 (Host.reduceAdd X (constant S_ .f32 0x00000000#32) k.hr h_S_))
    (splat bcast_S_S50000x1 k.w)

def lnG (X : FVec F ⟨2, ![50000, d]⟩ .f32) (g β : FVec F ⟨1, ![d]⟩ .f32) : FVec F ⟨2, ![50000, d]⟩ .f32 :=
  let c := subf X (broadcastInDim _ ![0, 1] k.hm (meanG k X))
  addf (mulf (mulf c (broadcastInDim _ ![0, 1] k.hm
    (Host.rsqrt (addf (meanG k (mulf c c)) (splat bcast_S_S50000x1 0x3727C5AC#32))))) (rows k.h1 k.h2 g)) (rows k.h1 k.h2 β)

def wordsG (a : IVec S400000 32) : IVec S450000 32 :=
  concatenate S450000 0 [⟨S400000, a⟩, ⟨S50000, iotaInDim S50000 32 0⟩] concatenates_S400000_S50000_S450000_d0

def rowG (o : ℕ) (h : S2x400000.Slices ![o, 0] S1x400000) (ei : IVec S2x400000 32) : IVec S400000 32 :=
  shapeCast S400000 (extractStridedSlice S1x400000 ![o, 0] ei h) shapeCasts_S1x400000_S400000

def colG {α : Type} (s : S450000.Idx → α) : S450000x1.Idx → α := broadcastInDim S450000x1 ![0] bcast_S450000_S450000x1_0 s

/-- Start indices: each word, with the node count added when it reads negative. -/
def wrapG (s : IVec S450000 32) : IVec S450000x1 32 :=
  colG (select (cmpi .slt s (broadcastInDim S450000 ![] bcast_S_S450000 (constantI S_ 32 0#32)))
    (addi s (broadcastInDim S450000 ![] bcast_S_S450000 (constantI S_ 32 50000#32))) s)

/-- In-degrees: a one added at every edge's end word. -/
def degG (t : IVec S450000 32) : FVec F S50000 .f32 :=
  Host.scatterAdd scatter_S50000_S450000x1_S450000_n_0_0_1 (splat bcast_S_S50000 0x00000000#32) (colG t)
    (splat bcast_S_S450000 0x3F800000#32)

def wgtG (t : IVec S450000 32) : FVec F S50000 .f32 :=
  select (cmpf .ogt (degG (F := F) t) (splat bcast_S_S50000 0x00000000#32))
    (mulf (Host.rsqrt (maximumf (degG t) (splat bcast_S_S50000 0x3F800000#32)))
      (uitofp .f32 (cmpf .ogt (degG (F := F) t) (splat bcast_S_S50000 0x00000000#32))))
    (splat bcast_S_S50000 0x00000000#32)

def ewG (s t : IVec S450000 32) : FVec F S450000 .f32 :=
  mulf (Host.gather gather_S50000_S450000x1_S450000_n_0_n_n_0_1_1 (wgtG t) (wrapG s))
    (Host.gather gather_S50000_S450000x1_S450000_n_0_n_n_0_1_1 (wgtG t) (wrapG t))

/-- Per node, the sum over its incoming edges of source row times edge scalar; then the bias. -/
def convG (XW : FVec F ⟨2, ![50000, d]⟩ .f32) (sc : IVec S450000x1 32) (t : IVec S450000 32) (ew : FVec F S450000 .f32)
    (b : FVec F ⟨1, ![d]⟩ .f32) : FVec F ⟨2, ![50000, d]⟩ .f32 :=
  addf (Host.scatterAdd k.sd (splat k.hz 0x00000000#32) (colG t)
    (mulf (Host.gather k.gd XW sc) (broadcastInDim _ ![0, 1] k.hb (colG ew)))) (rows k.h1 k.h2 b)

def layerG (XW : FVec F ⟨2, ![50000, d]⟩ .f32) (sc : IVec S450000x1 32) (t : IVec S450000 32) (ew : FVec F S450000 .f32)
    (b g β : FVec F ⟨1, ![d]⟩ .f32) : FVec F ⟨2, ![50000, d]⟩ .f32 :=
  leakyG k.hz (lnG k (convG k XW sc t ew b) g β)

end Stages

section Read

variable {n d : ℕ} (k : Width d)

theorem hrsqrt_apply {s : Shape} (x : FVec Ideal s .f32) (i : s.Idx) : Host.rsqrt x i = Ideal.rsqrt (x i) := rfl

theorem uitofp_apply {s : Shape} (x : IVec s 1) (i : s.Idx) :
    (uitofp .f32 x : FVec Ideal s .f32) i = (((x i).toNat : ℝ) : EReal) := rfl

theorem colG_apply {α : Type} (s : S450000.Idx → α) (e : Fin 450000) (z : Fin 1) : colG s (ix2 e z) = s (ix1 e) :=
  Alg.bcast_vec_col _ s e z

theorem splat_apply {t : Shape} (h : S_.BroadcastsInDim t ![]) (b : BitVec 32) (j : t.Idx) :
    splat (F := Ideal) h b j = Ideal.ofBits .f32 b := Alg.bcast_scalar_apply h _ j

theorem leakyG_eq (hz : S_.BroadcastsInDim ⟨2, ![n, d]⟩ ![]) (X : FVec Ideal ⟨2, ![n, d]⟩ .f32) :
    (leakyG hz X : Spec.Mat n d) = Spec.lrelu X :=
  Alg.lrelu_select X _ _ (fun _ => (splat_apply _ _ _).trans Ideal.ofBits_zero_f32) (splat_apply _ _)

theorem meanG_apply (X : FVec Ideal ⟨2, ![50000, d]⟩ .f32) (r : Fin 50000) (z : Fin 1) :
    meanG k X (ix2 r z) = Spec.rowMean (Ideal.ofBits .f32 k.w) X r := by
  unfold meanG
  rw [hostDivf_apply, Alg.bcast_vec_col, splat_apply, Alg.reduceAdd_rows_zero _ _ _ (constant (F := Ideal) S_ .f32 0x00000000#32) (fun _ => Ideal.ofBits_zero_f32)]
  rfl

theorem lnG_eq (X : FVec Ideal ⟨2, ![50000, d]⟩ .f32) (g β : FVec Ideal ⟨1, ![d]⟩ .f32) :
    (lnG k X g β : Spec.Mat 50000 d) = Spec.layerNorm (Ideal.ofBits .f32 k.w) X g β := by
  funext i
  obtain ⟨r, j, rfl⟩ : ∃ r j, i = ix2 r j := ⟨i 0, i 1, eq_ix2 i⟩
  have hM : ∀ j', broadcastInDim _ ![0, 1] k.hm (meanG k X) (ix2 r j') = Spec.rowMean (Ideal.ofBits .f32 k.w) X r :=
    fun j' => by rw [Alg.bcast_col_mat, meanG_apply]
  show (X (ix2 r j) - broadcastInDim _ ![0, 1] k.hm (meanG k X) (ix2 r j))
      * broadcastInDim _ ![0, 1] k.hm (Host.rsqrt (addf (meanG k _) (splat (F := Ideal) bcast_S_S50000x1 0x3727C5AC#32))) (ix2 r j)
      * rows k.h1 k.h2 g (ix2 r j) + rows k.h1 k.h2 β (ix2 r j)
    = (X (ix2 r j) - Spec.rowMean _ X r) * Ideal.rsqrt (Spec.rowVar _ X r + Spec.eps) * g (ix1 j) + β (ix1 j)
  rw [hM, Alg.bcast_col_mat, rows, rows, Alg.bcast_vec_rows, Alg.bcast_vec_rows, hrsqrt_apply, addf_apply, meanG_apply, splat_apply]
  simp only [Spec.rowVar, Spec.rowMean, mulf_apply, subf_apply, hM]

theorem edge_apply {o : ℕ} (h : S2x400000.Slices ![o, 0] S1x400000) (q : Fin 2) (hq : q.val = o) (ei : IVec S2x400000 32)
    (e : Fin 450000) : wordsG (rowG o h ei) (ix1 e) = Spec.edgeWord ei q e :=
  Alg.concat_iota_edgeWord _ ei q _
    (fun p => by rw [rowG, shapeCast_1a_a_apply]; exact slice2_axis0_apply o ei h 0 p q (by simp [hq])) e

theorem degG_apply (t : IVec S450000 32) (r : Fin 50000) :
    degG (F := Ideal) t (ix1 r) = Spec.degree (fun e : Fin 450000 => (t (ix1 e)).toInt) r := by
  unfold degG Spec.degree
  rw [Alg.scatterAdd_scalars _ rfl rfl rfl rfl]
  simp only [splat_apply, colG_apply]

/-- Where `z < x` holds, the comparison's bit read as a float is one. -/
theorem weight_scalar (x z y : EReal) :
    Scalar.select (Ideal.cmp .ogt x z) (y * (((Ideal.cmp .ogt x z).toNat : ℝ) : EReal)) z = if z < x then y else z := by
  by_cases h : z < x <;> simp [Ideal.cmp, Scalar.select, h]

theorem wgtG_apply (t : IVec S450000 32) (r : Fin 50000) :
    wgtG (F := Ideal) t (ix1 r) = Spec.weight (fun e : Fin 450000 => (t (ix1 e)).toInt) r := by
  unfold wgtG
  rw [select_apply, cmpf_apply, mulf_apply, hrsqrt_apply, maximumf_apply, uitofp_apply, cmpf_apply, degG_apply, splat_apply,
    splat_apply, Ideal.cmpf_def]
  exact weight_scalar _ _ _

theorem wrapG_node (s : IVec S450000 32) (e : Fin 450000) (h : min (wrapG s (ix2 e 0)).toInt.toNat (50000 - 1) < 50000) :
    (⟨min (wrapG s (ix2 e 0)).toInt.toNat (50000 - 1), h⟩ : Fin 50000) = Spec.nodeOf (s (ix1 e)) := by
  refine Fin.ext ?_
  show min (wrapG s (ix2 e 0)).toInt.toNat (50000 - 1) = (Spec.nodeOf (s (ix1 e))).val
  rw [wrapG, colG_apply]
  exact congrArg Fin.val (Alg.nodeOf_wrap s _ _ (fun i => Alg.bcast_scalar_apply _ _ i)
    (fun i => Alg.bcast_scalar_apply _ _ i) (ix1 e) (by omega))

theorem ewG_apply (s t : IVec S450000 32) (e : Fin 450000) :
    ewG (F := Ideal) s t (ix1 e) = Spec.weight (fun e : Fin 450000 => (t (ix1 e)).toInt) (Spec.nodeOf (s (ix1 e)))
      * Spec.weight (fun e : Fin 450000 => (t (ix1 e)).toInt) (Spec.nodeOf (t (ix1 e))) := by
  unfold ewG
  rw [mulf_apply, Alg.gather_scalars (by decide) _ rfl rfl rfl rfl, Alg.gather_scalars (by decide) _ rfl rfl rfl rfl,
    wrapG_node, wrapG_node, wgtG_apply, wgtG_apply]

theorem convG_eq (XW : FVec Ideal ⟨2, ![50000, d]⟩ .f32) (s t : IVec S450000 32) (b : FVec Ideal ⟨1, ![d]⟩ .f32) :
    (convG k XW (wrapG s) t (ewG s t) b : Spec.Mat 50000 d)
      = Spec.convEdges XW (Spec.weight (fun e : Fin 450000 => (t (ix1 e)).toInt)) (fun e => Spec.nodeOf (s (ix1 e)))
          (fun e => Spec.nodeOf (t (ix1 e))) (fun e => (t (ix1 e)).toInt) b := by
  funext i
  obtain ⟨r, j, rfl⟩ : ∃ r j, i = ix2 r j := ⟨i 0, i 1, eq_ix2 i⟩
  show convG k XW (wrapG s) t (ewG s t) b (ix2 r j)
    = (∑ e ∈ Spec.into (fun e : Fin 450000 => (t (ix1 e)).toInt) r, XW (ix2 (Spec.nodeOf (s (ix1 e))) j)
        * (Spec.weight (fun e : Fin 450000 => (t (ix1 e)).toInt) (Spec.nodeOf (s (ix1 e)))
          * Spec.weight (fun e : Fin 450000 => (t (ix1 e)).toInt) (Spec.nodeOf (t (ix1 e))))) + b (ix1 j)
  unfold convG rows
  rw [addf_apply, Alg.bcast_vec_rows, Alg.scatterAdd_rows _ k.suw k.siw k.ssd k.siv, splat_apply, Ideal.ofBits_zero_f32, zero_add]
  simp only [colG_apply]
  refine congrArg₂ (· + ·) (Finset.sum_congr rfl fun e _ => ?_) rfl
  rw [mulf_apply, Alg.gather_rows (by decide) _ k.god k.gcs k.gob k.gsm k.giv, wrapG_node, Alg.bcast_col_mat, colG_apply, ewG_apply]

/-- One layer past its dense map is the specification's layer. -/
theorem layerG_eq (XW : FVec Ideal ⟨2, ![50000, d]⟩ .f32) (ei : IVec S2x400000 32) (h0 : S2x400000.Slices ![0, 0] S1x400000)
    (h1 : S2x400000.Slices ![1, 0] S1x400000) (b g β : FVec Ideal ⟨1, ![d]⟩ .f32) :
    (layerG k XW (wrapG (wordsG (rowG 0 h0 ei))) (wordsG (rowG 1 h1 ei))
        (ewG (wordsG (rowG 0 h0 ei)) (wordsG (rowG 1 h1 ei))) b g β : Spec.Mat 50000 d)
      = Spec.lrelu (Spec.layerNorm (Ideal.ofBits .f32 k.w) (Spec.convEdges XW (Spec.weight (n := 50000) (Spec.dstOf ei))
          (Spec.srcOf ei) (Spec.dstNodeOf ei) (Spec.dstOf ei) b) g β) := by
  rw [layerG, leakyG_eq, lnG_eq, convG_eq]
  simp only [edge_apply h0 0 rfl, edge_apply h1 1 rfl]
  rfl

end Read

end Cert.ReferenceIdeal.Val

end
-- ==== Proof.Ref.ValA.lean ====
import proofs.«411879_j309237646134_3_alg».proof.Proof.Ref.Run
import proofs.«411879_j309237646134_3_alg».proof.Proof.Ref.ValLN

noncomputable section

namespace Cert.ReferenceIdeal.Val

open Idealize.ShloMosaic Idealize.ShloMosaic.ValueIdx Cert Cert.ReferenceIdeal Cert.ReferenceIdeal.Gen Idealize.SL.Sem
  Idealize.ShloMosaic.StableHlo

section Fold

variable {F : FTy → Type} [FloatOps F] (V : Valuation τ sig (Elt F))

theorem p0_v1 : after HandRun.ops_part0 V (Proc.devRef .tc main_v1)
    = rowG 0 slices_S2x400000_S1x400000_0_0 (V (Proc.devRef .tc main_arg1)) := by
  after_results_simp
  rfl

theorem p0_v3 : after HandRun.ops_part0 V (Proc.devRef .tc main_v3)
    = rowG 1 slices_S2x400000_S1x400000_1_0 (V (Proc.devRef .tc main_arg1)) := by
  after_results_simp
  rfl

theorem p0_v12 : after HandRun.ops_part0 V (Proc.devRef .tc main_v12)
    = wordsG (rowG 1 slices_S2x400000_S1x400000_1_0 (V (Proc.devRef .tc main_arg1))) := by
  after_results_simp
  rfl

theorem p0_v47 : after HandRun.ops_part0 V (Proc.devRef .tc main_v47)
    = wrapG (wordsG (rowG 0 slices_S2x400000_S1x400000_0_0 (V (Proc.devRef .tc main_arg1)))) := by
  after_results_simp
  rfl

theorem p0_v41 : after HandRun.ops_part0 V (Proc.devRef .tc main_v41)
    = ewG (wordsG (rowG 0 slices_S2x400000_S1x400000_0_0 (V (Proc.devRef .tc main_arg1))))
        (wordsG (rowG 1 slices_S2x400000_S1x400000_1_0 (V (Proc.devRef .tc main_arg1)))) := by
  after_results_simp
  rfl

theorem p0_v9 : after HandRun.ops_part0 V (Proc.devRef .tc main_v9)
    = Host.dotGeneral dot_S50000x256_S256x256_S50000x256_1_0_0_1_n_n none (leakyG bcast_S_S50000x256
        (addf (Host.dotGeneral dot_S50000x92_S92x256_S50000x256_1_0_0_1_n_n none (V (Proc.devRef .tc main_arg0))
          (V (Proc.devRef .tc main_arg3))) (rows bcast_S256_S1x256_1 bcast_S1x256_S50000x256_0_1 (V (Proc.devRef .tc main_arg4)))))
        (V (Proc.devRef .tc main_arg7)) := by
  after_results_simp
  rfl

theorem p1_v82 : after HandRun.ops_part1 V (Proc.devRef .tc main_v82)
    = layerG W256 (V (Proc.devRef .tc main_v9)) (V (Proc.devRef .tc main_v47)) (V (Proc.devRef .tc main_v12))
        (V (Proc.devRef .tc main_v41)) (V (Proc.devRef .tc main_arg8)) (V (Proc.devRef .tc main_arg5))
        (V (Proc.devRef .tc main_arg6)) := by
  after_results_simp
  rfl

end Fold

end Cert.ReferenceIdeal.Val

end
-- ==== Proof.Ref.ValB.lean ====
import proofs.«411879_j309237646134_3_alg».proof.Proof.Ref.ValA

noncomputable section

namespace Cert.ReferenceIdeal.Val

open Idealize.ShloMosaic Idealize.ShloMosaic.ValueIdx Cert Cert.ReferenceIdeal Cert.ReferenceIdeal.Gen Idealize.SL.Sem
  Idealize.ShloMosaic.StableHlo

section Second

variable {F : FTy → Type} [FloatOps F]

/-- Rows scaled to unit length, the length floored. -/
def l2G (x : FVec F S50000x128 .f32) : FVec F S50000x128 .f32 :=
  Host.divf x (broadcastInDim S50000x128 ![0, 1] bcast_S50000x1_S50000x128_0_1
    (maximumf (Host.sqrt (broadcastInDim S50000x1 ![0] bcast_S50000_S50000x1_0
      (Host.reduceAdd (mulf x x) (constant S_ .f32 0x00000000#32) reducesTo_S50000x128_S50000_d1 h_S_)))
      (splat bcast_S_S50000x1 0x2B8CBCCC#32)))

set_option maxHeartbeats 1000000 in
theorem readoff161 (X : Valuation τ sig (Elt F)) :
    after HandRun.ops_part3 (after HandRun.ops_part2 (after HandRun.ops_part1 X)) (Proc.devRef .tc main_v161)
      = l2G (layerG W128 (Host.dotGeneral dot_S50000x256_S256x128_S50000x128_1_0_0_1_n_n none
          (after HandRun.ops_part3 (after HandRun.ops_part2 (after HandRun.ops_part1 X)) (Proc.devRef .tc main_v82))
          (X (Proc.devRef .tc main_arg11)))
        (wrapG (wordsG (X (Proc.devRef .tc main_v1)))) (wordsG (X (Proc.devRef .tc main_v3)))
        (ewG (wordsG (X (Proc.devRef .tc main_v1))) (wordsG (X (Proc.devRef .tc main_v3))))
        (X (Proc.devRef .tc main_arg12)) (X (Proc.devRef .tc main_arg9)) (X (Proc.devRef .tc main_arg10))) := by
  after_results_simp
  rfl

end Second

theorem hsqrt_apply {s : Shape} (x : FVec Ideal s .f32) (i : s.Idx) : Host.sqrt x i = Ideal.sqrt (x i) := rfl

theorem l2G_eq (x : FVec Ideal S50000x128 .f32) : (l2G x : Spec.Mat 50000 128) = Spec.l2norm x := by
  funext i
  obtain ⟨r, j, rfl⟩ : ∃ (r : Fin 50000) (j : Fin 128), i = ix2 r j := ⟨i 0, i 1, eq_ix2 i⟩
  unfold l2G Spec.l2norm Spec.rowLen
  rw [hostDivf_apply, Alg.bcast_col_mat, maximumf_apply, splat_apply, hsqrt_apply, Alg.bcast_vec_col,
    Alg.reduceAdd_rows_zero _ _ _ (constant (F := Ideal) S_ .f32 0x00000000#32) (fun _ => Ideal.ofBits_zero_f32)]
  rfl

end Cert.ReferenceIdeal.Val

end
-- ==== Proof.Ref.ValHead.lean ====
import proofs.«411879_j309237646134_3_alg».proof.Proof.Ref.Run
import proofs.«411879_j309237646134_3_alg».proof.Proof.Ref.ValLN

noncomputable section

namespace Cert.ReferenceIdeal.Val

open Idealize.ShloMosaic Idealize.ShloMosaic.ValueIdx Cert Cert.ReferenceIdeal Cert.ReferenceIdeal.Gen Idealize.SL.Sem
  Idealize.ShloMosaic.StableHlo

section Head

variable {F : FTy → Type} [FloatOps F]

/-- Per-graph row sums, then dense, leaky rectifier, dense. -/
def headG (ha : FVec F S50000x128 .f32) (gid : IVec S50000 32) (Wf1 : FVec F S128x64 .f32) (bf1 : FVec F S64 .f32)
    (Wf2 : FVec F S64x1 .f32) (bf2 : FVec F S1 .f32) : FVec F S500x1 .f32 :=
  addf (Host.dotGeneral dot_S500x64_S64x1_S500x1_1_0_0_1_n_n none
    (leakyG bcast_S_S500x64 (addf (Host.dotGeneral dot_S500x128_S128x64_S500x64_1_0_0_1_n_n none
      (Host.scatterAdd scatter_S500x128_S50000x1_S50000x128_1_0_0_1 (splat bcast_S_S500x128 0x00000000#32)
        (broadcastInDim S50000x1 ![0] bcast_S50000_S50000x1_0 gid) ha) Wf1)
      (rows bcast_S64_S1x64_1 bcast_S1x64_S500x64_0_1 bf1))) Wf2)
    (rows bcast_S1_S1x1_1 bcast_S1x1_S500x1_0_1 bf2)

theorem readoff173 (Y : Valuation τ sig (Elt F)) :
    after HandRun.ops_part3 Y (Proc.devRef .tc main_v173)
      = headG (after HandRun.ops_part3 Y (Proc.devRef .tc main_v161)) (after HandRun.ops_part3 Y (Proc.devRef .tc main_arg2))
          (after HandRun.ops_part3 Y (Proc.devRef .tc main_arg13)) (after HandRun.ops_part3 Y (Proc.devRef .tc main_arg14))
          (after HandRun.ops_part3 Y (Proc.devRef .tc main_arg15)) (after HandRun.ops_part3 Y (Proc.devRef .tc main_arg16)) := by
  after_results_simp
  rfl

end Head

theorem headG_eq (ha : FVec Ideal S50000x128 .f32) (gid : IVec S50000 32) (Wf1 : FVec Ideal S128x64 .f32)
    (bf1 : FVec Ideal S64 .f32) (Wf2 : FVec Ideal S64x1 .f32) (bf2 : FVec Ideal S1 .f32) :
    (headG ha gid Wf1 bf1 Wf2 bf2 : Spec.Mat 500 1)
      = Spec.head (G := 500) (ha : Spec.Mat 50000 128) (fun r => (gid (ix1 r)).toInt) Wf1 bf1 Wf2 bf2 := by
  unfold headG rows Spec.head Spec.headOf
  rw [Alg.dense_addRow _ rfl rfl rfl rfl rfl rfl, leakyG_eq, Alg.dense_addRow _ rfl rfl rfl rfl rfl rfl,
    Alg.scatterAdd_pool _ rfl rfl rfl rfl _ (fun _ => (splat_apply _ _ _).trans Ideal.ofBits_zero_f32)]
  exact congrArg (fun f => Spec.headOf (Spec.pool (G := 500) (ha : Spec.Mat 50000 128) f) Wf1 bf1 Wf2 bf2)
    (funext fun r => congrArg BitVec.toInt (Alg.bcast_vec_col _ gid r 0))

end Cert.ReferenceIdeal.Val

end
-- ==== Proof.Ref.Value.lean ====
import proofs.«411879_j309237646134_3_alg».proof.Proof.Ref.ValA
import proofs.«411879_j309237646134_3_alg».proof.Proof.Ref.ValB
import proofs.«411879_j309237646134_3_alg».proof.Proof.Ref.ValHead

noncomputable section

namespace Cert.ReferenceIdeal.Value

open Idealize.ShloMosaic Idealize.ShloMosaic.TcCoe Idealize.ShloMosaic.ValueIdx Idealize.ShloMosaic.StableHlo Idealize.SL.Sem
open Cert.ReferenceIdeal Cert.Spec

variable (m : (ℓ : Loc nD τ sig) → Buf (Elt Ideal) ℓ) (c : Dev nD)

abbrev ei : (⟨2, ![2, 400000]⟩ : Shape).Idx → BitVec 32 := m (c, Proc.devRef .tc main_arg1)

abbrev convR {d : ℕ} (XW : Mat 50000 d) (b : Vec1 d) : Mat 50000 d :=
  convEdges XW (weight (n := 50000) (dstOf (ei m c))) (srcOf (ei m c)) (dstNodeOf (ei m c)) (dstOf (ei m c)) b

def haR : Mat 50000 128 :=
  embed (convR m c) (convR m c)
    (m (c, Proc.devRef .tc main_arg0)) (m (c, Proc.devRef .tc main_arg3)) (m (c, Proc.devRef .tc main_arg4))
    (m (c, Proc.devRef .tc main_arg5)) (m (c, Proc.devRef .tc main_arg6)) (m (c, Proc.devRef .tc main_arg7))
    (m (c, Proc.devRef .tc main_arg8)) (m (c, Proc.devRef .tc main_arg9)) (m (c, Proc.devRef .tc main_arg10))
    (m (c, Proc.devRef .tc main_arg11)) (m (c, Proc.devRef .tc main_arg12))

def gid (r : Fin 50000) : ℤ :=
  ((m (c, Proc.devRef .tc main_arg2) : (⟨1, ![50000]⟩ : Shape).Idx → BitVec 32) (ix1 r)).toInt

def outR : Mat 500 1 :=
  head (G := 500) (haR m c) (gid m c)
    (m (c, Proc.devRef .tc main_arg13)) (m (c, Proc.devRef .tc main_arg14))
    (m (c, Proc.devRef .tc main_arg15)) (m (c, Proc.devRef .tc main_arg16))

theorem ha_eq :
    (StableHlo.after (HandRun.ops (F := Ideal)) (launchContents m c) (Proc.devRef .tc main_v161) : Mat 50000 128) = haR m c := by
  rw [HandRun.after_ops, Val.readoff161, Val.p0_v1, Val.p0_v3, HandRun.ops_part0_keep _ main_arg11 (by decide),
    HandRun.ops_part0_keep _ main_arg12 (by decide), HandRun.ops_part0_keep _ main_arg9 (by decide),
    HandRun.ops_part0_keep _ main_arg10 (by decide), HandRun.ops_part3_keep _ main_v82 (by decide),
    HandRun.ops_part2_keep _ main_v82 (by decide), Val.p1_v82, Val.p0_v9, Val.p0_v47, Val.p0_v12, Val.p0_v41,
    HandRun.ops_part0_keep _ main_arg8 (by decide), HandRun.ops_part0_keep _ main_arg5 (by decide),
    HandRun.ops_part0_keep _ main_arg6 (by decide), Val.l2G_eq, Val.layerG_eq, Alg.dotGeneral_mm _ rfl rfl rfl rfl rfl rfl,
    Val.layerG_eq, Alg.dotGeneral_mm _ rfl rfl rfl rfl rfl rfl, Val.leakyG_eq, Val.rows,
    Alg.dense_addRow _ rfl rfl rfl rfl rfl rfl]
  rfl

theorem out_eq :
    (StableHlo.after (HandRun.ops (F := Ideal)) (launchContents m c) (Proc.devRef .tc main_v173) : Mat 500 1) = outR m c := by
  have h := Val.readoff173 (after HandRun.ops_part2 (after HandRun.ops_part1 (after HandRun.ops_part0 (launchContents m c))))
  rw [← HandRun.after_ops, HandRun.keep_arg2, HandRun.keep_arg13, HandRun.keep_arg14, HandRun.keep_arg15,
    HandRun.keep_arg16] at h
  rw [h, Val.headG_eq, ha_eq]
  rfl

end Cert.ReferenceIdeal.Value

end
-- ==== Proof.Alg.Bridge.lean ====
import proofs.«411879_j309237646134_3_alg».proof.Proof.Alg.Conv

noncomputable section

namespace Cert.Alg

open Idealize.ShloMosaic Idealize.ShloMosaic.ValueIdx Cert.Spec

theorem embed_arrangements (ei : (⟨2, ![2, 400000]⟩ : Shape).Idx → BitVec 32)
    (x : Mat 50000 92) (W0 : Mat 92 256) (b0 g1 β1 : Vec1 256) (W1 : Mat 256 256) (b1 : Vec1 256)
    (g2 β2 : Vec1 128) (W2 : Mat 256 128) (b2 : Vec1 128) :
    embed (fun (XW : Mat 50000 256) (b : Vec1 256) => convSum XW (weight (n := 50000) (dstOf ei)) (srcOf ei) (dstOf ei) b)
        (fun (XW : Mat 50000 128) (b : Vec1 128) => convSum XW (weight (n := 50000) (dstOf ei)) (srcOf ei) (dstOf ei) b)
        x W0 b0 g1 β1 W1 b1 g2 β2 W2 b2
      = embed (fun (XW : Mat 50000 256) (b : Vec1 256) => convEdges XW (weight (n := 50000) (dstOf ei)) (srcOf ei) (dstNodeOf ei) (dstOf ei) b)
        (fun (XW : Mat 50000 128) (b : Vec1 128) => convEdges XW (weight (n := 50000) (dstOf ei)) (srcOf ei) (dstNodeOf ei) (dstOf ei) b)
        x W0 b0 g1 β1 W1 b1 g2 β2 W2 b2 := by
  simp only [conv_eq_edges]

end Cert.Alg

end
-- ==== Proof.lean ====
import proofs.«411879_j309237646134_3_alg».proof.Defs
import proofs.«411879_j309237646134_3_alg».proof.Proof.Gen.Kernel
import proofs.«411879_j309237646134_3_alg».proof.Proof.Gen.KernelIdeal
import proofs.«411879_j309237646134_3_alg».proof.Proof.Gen.ReferenceIdeal
import proofs.«411879_j309237646134_3_alg».proof.Proof.Gen.Pre_finite_inputs
import proofs.«411879_j309237646134_3_alg».proof.Proof.KB.Run
import proofs.«411879_j309237646134_3_alg».proof.Proof.KI.Value
import proofs.«411879_j309237646134_3_alg».proof.Proof.Ref.Run
import proofs.«411879_j309237646134_3_alg».proof.Proof.Ref.Value
import proofs.«411879_j309237646134_3_alg».proof.Proof.Alg.Bridge

noncomputable section

namespace Cert.Proof

open Idealize.ShloMosaic Idealize.ShloMosaic.TcCoe Idealize.ShloMosaic.ValueIdx Idealize.SL.Sem

-- Both programs end with the specification's outputs and embeddings: the arguments agree, and the two arrangements of the edge sum are equal.
theorem algebraic : Cert.algebraic_KernelIdeal_ReferenceIdeal := by
  intro m g m' g' hpre hagree
  refine ⟨fun c => KernelIdeal.Value.outK m c, fun c => KernelIdeal.Value.haK m c,
    (θ_run _ _ _).mono (fun _ h c => ⟨(h c).1.trans (KernelIdeal.Value.out_eq m hpre c),
      (h c).2.1.trans (KernelIdeal.Value.ha_eq m c), (h c).2.2⟩) (KernelIdeal.Run.run_values m g),
    (θ_run (ReferenceIdeal.defs (F := Ideal)) _ _).mono (fun _ h c => ?_) (ReferenceIdeal.HandRun.results m' g')⟩
  have a := hagree c
  simp only [Dev.tc_loc] at a
  obtain ⟨a0, a1, a2, a3, a4, a5, a6, a7, a8, a9, a10, a11, a12, a13, a14, a15, a16⟩ := a
  have hha : ReferenceIdeal.Value.haR m' c = KernelIdeal.Value.haK m c := by
    unfold ReferenceIdeal.Value.haR KernelIdeal.Value.haK
    delta ReferenceIdeal.Value.convR ReferenceIdeal.Value.ei KernelIdeal.Value.convK KernelIdeal.Value.ei
    beta_reduce
    rw [a0, a1, a3, a4, a5, a6, a7, a8, a9, a10, a11, a12]
    exact (Alg.embed_arrangements ..).symm
  refine ⟨(h c).1.trans ?_, (h c).2.1.trans ?_, (h c).2.2⟩
  · rw [ReferenceIdeal.Value.out_eq]
    unfold ReferenceIdeal.Value.outR KernelIdeal.Value.outK ReferenceIdeal.Value.gid KernelIdeal.Value.gid
    rw [hha, a2, a13, a14, a15, a16]
  · rw [ReferenceIdeal.Value.ha_eq]; exact hha

theorem claim : Cert.Claim :=
  ⟨Kernel.Gen.facts, KernelIdeal.Gen.facts, ReferenceIdeal.Gen.facts, Pre_finite_inputs.Gen.facts,
    fun m ρ _ => Kernel.Run.frame m ρ, fun m ρ _ => KernelIdeal.Run.frame m ρ, ReferenceIdeal.HandRun.frame,
    IdealRules.truncf_extf.statement KernelIdeal.S2000x128 .f32 .bf16, algebraic⟩

end Cert.Proof

end
